-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x1600000 32 := (extractStridedSlice S1x1600000 ![0, 0] · slices_S2x1600000_S1x1600000_0_0) main_arg1
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![0, 0] · slices_S2x1600000_S1x1600000_0_0) main_arg1
  let main_v59 : IVec S1600000 32 := shapeCast S1600000 main_v58 shapeCasts_S1x1600000_S1600000
  let main_c_21 : IVec S_ 32 := constantI S_ 32 100000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg1 : IVec S2x1600000 32) (main_arg8 : FVec F S64x64 .f32) (main_arg9 : FVec F S64 .f32) (main_arg10 : FVec F S64 .f32) (main_arg11 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x1600000 32) (main_arg5 : FVec F S64 .f32) (main_arg6 : FVec F S64 .f32) (main_arg7 : FVec F S64x64 .f32) (main_arg8 : FVec F S64x64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64 .f32) (main_arg6 : FVec F S64 .f32) (main_arg7 : FVec F S64x64 .f32) (main_arg8 : FVec F S64x64 .f32) (main_arg9 : FVec F S64 .f32) (main_arg10 : FVec F S64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000x1 : Shape := ⟨2, ![100000, 1]⟩
abbrev S1x64 : Shape := ⟨2, ![1, 64]⟩
abbrev S2000x64 : Shape := ⟨2, ![2000, 64]⟩

abbrev nBuf : Space → Nat
  | .hbm => 122
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x64, .f32⟩
  | .hbm, ⟨41, _⟩ => ⟨S1600000x64, .i1⟩
  | .hbm, ⟨42, _⟩ => ⟨S_, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S64x64, .f32⟩
  | .hbm, ⟨57, _⟩ => ⟨S1x64, .f32⟩
  | .hbm, ⟨58, _⟩ => ⟨S100000x64, .f32⟩
  | .hbm, ⟨59, _⟩ => ⟨S1x64, .f32⟩
  | .hbm, ⟨60, _⟩ => ⟨S1x64, .f32⟩
  | .hbm, ⟨61, _⟩ => ⟨S_, .f32⟩
  | .hbm, ⟨62, _⟩ => ⟨S1x64, .f32⟩
  | .hbm, ⟨63, _⟩ => ⟨S1x64, .f32⟩
  | .hbm, ⟨64, _⟩ => ⟨S_, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1, .i32⟩
  | .hbm, ⟨81, _⟩ => ⟨S_, .i32⟩
  | .hbm, ⟨82, _⟩ => ⟨S1600000x1, .i32⟩
  | .hbm, ⟨83, _⟩ => ⟨S1600000x1, .i1⟩
  | .hbm, ⟨84, _⟩ => ⟨S1x1, .i32⟩
  | .hbm, ⟨85, _⟩ => ⟨S1600000x1, .i32⟩
  | .hbm, ⟨86, _⟩ => ⟨S1600000x1, .i1⟩
  | .hbm, ⟨87, _⟩ => ⟨S1600000x1, .i1⟩
  | .hbm, ⟨88, _⟩ => ⟨S_, .i1⟩
  | .hbm, ⟨89, _⟩ => ⟨S1600000, .i1⟩
  | .hbm, ⟨90, _⟩ => ⟨S1600000x64, .f32⟩
  | .hbm, ⟨91, _⟩ => ⟨S1600000x64, .i1⟩
  | .hbm, ⟨92, _⟩ => ⟨S_, .f32⟩
  | .hbm, ⟨93, _⟩ => ⟨S1600000x64, .f32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S64x64, .f32⟩
  | .hbm, ⟨106, _⟩ => ⟨S64x64, .f32⟩
  | .hbm, ⟨107, _⟩ => ⟨S1x64, .f32⟩
  | .hbm, ⟨108, _⟩ => ⟨S100000x64, .f32⟩
  | .hbm, ⟨109, _⟩ => ⟨S1x64, .f32⟩
  | .hbm, ⟨110, _⟩ => ⟨S1x64, .f32⟩
  | .hbm, ⟨111, _⟩ => ⟨S_, .f32⟩
  | .hbm, ⟨112, _⟩ => ⟨S1x64, .f32⟩
  | .hbm, ⟨113, _⟩ => ⟨S1x64, .f32⟩
  | .hbm, ⟨114, _⟩ => ⟨S_, .f32⟩
  | .hbm, ⟨115, _⟩ => ⟨S1x64, .f32⟩
  | .hbm, ⟨116, _⟩ => ⟨S1x64, .f32⟩
  | .hbm, ⟨117, _⟩ => ⟨S1x64, .f32⟩
  | .hbm, ⟨118, _⟩ => ⟨S1x64, .f32⟩
  | .hbm, ⟨119, _⟩ => ⟨S1x64, .f32⟩
  | .hbm, ⟨120, _⟩ => ⟨S1x64, .f32⟩
  | .hbm, ⟨121, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20_0 : Ref sig .tc := ⟨.hbm, 58, rfl⟩
abbrev main_v20_1 : Ref sig .tc := ⟨.hbm, 59, rfl⟩
abbrev main_v20_2 : Ref sig .tc := ⟨.hbm, 60, rfl⟩
abbrev main_cst_3 : Ref sig .tc := ⟨.hbm, 61, rfl⟩
abbrev main_v21 : Ref sig .tc := ⟨.hbm, 62, rfl⟩
abbrev main_v22 : Ref sig .tc := ⟨.hbm, 63, rfl⟩
abbrev main_cst_4 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_c_1 : Ref sig .tc := ⟨.hbm, 80, rfl⟩
abbrev main_call1_c_2 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_3 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_call1_cst : Ref sig .tc := ⟨.hbm, 92, rfl⟩
abbrev main_call1_v15 : Ref sig .tc := ⟨.hbm, 93, rfl⟩
abbrev main_v30 : Ref sig .tc := ⟨.hbm, 94, rfl⟩
abbrev main_cst_5 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_cst_6 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42_0 : Ref sig .tc := ⟨.hbm, 108, rfl⟩
abbrev main_v42_1 : Ref sig .tc := ⟨.hbm, 109, rfl⟩
abbrev main_v42_2 : Ref sig .tc := ⟨.hbm, 110, rfl⟩
abbrev main_cst_7 : Ref sig .tc := ⟨.hbm, 111, rfl⟩
abbrev main_v43 : Ref sig .tc := ⟨.hbm, 112, rfl⟩
abbrev main_v44 : Ref sig .tc := ⟨.hbm, 113, rfl⟩
abbrev main_cst_8 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v37 : BitVec 1 := Scalar.cmpi .eq arg0 c49_i32
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_23 : BitVec 32 := 0#32
  let v40 : BitVec 1 := Scalar.cmpi .ne v39 c0_i32_23
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2000x64 : S1x64.Broadcasts S2000x64
  reduces_S2000x64_S64 : S2000x64.Reduces [0] S64
  bcast_S_S1x64 : S_.BroadcastsInDim S1x64 (![] : Fin 0 → Fin S1x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v20_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v42_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 158
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64, .f32⟩
  | 5 => ⟨S64, .f32⟩
  | 6 => ⟨S64, .f32⟩
  | 7 => ⟨S64x64, .f32⟩
  | 8 => ⟨S64x64, .f32⟩
  | 9 => ⟨S64, .f32⟩
  | 10 => ⟨S64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S64x64, .f32⟩
  | 42 => ⟨S100000x64, .f32⟩
  | 43 => ⟨S64x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S_, .f32⟩
  | 81 => ⟨S100000x64, .f32⟩
  | 82 => ⟨S100000x64, .i1⟩
  | 83 => ⟨S_, .f32⟩
  | 84 => ⟨S100000x64, .f32⟩
  | 85 => ⟨S100000x64, .f32⟩
  | 86 => ⟨S100000x64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S_, .f32⟩
  | 101 => ⟨S1600000, .f32⟩
  | 102 => ⟨S_, .f32⟩
  | 103 => ⟨S100000, .f32⟩
  | 104 => ⟨S1600000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x64, .f32⟩
  | 111 => ⟨S100000x64, .f32⟩
  | 112 => ⟨S64x64, .f32⟩
  | 113 => ⟨S100000x64, .f32⟩
  | 114 => ⟨S64x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S64, .f32⟩
  | 3 => ⟨S_, .f32⟩
  | 4 => ⟨S64, .f32⟩
  | 5 => ⟨S64, .f32⟩
  | 6 => ⟨S1x64, .f32⟩
  | 7 => ⟨S100000x64, .f32⟩
  | 8 => ⟨S100000x64, .f32⟩
  | 9 => ⟨S_, .f32⟩
  | 10 => ⟨S64, .f32⟩
  | 11 => ⟨S64, .f32⟩
  | 12 => ⟨S64, .f32⟩
  | 13 => ⟨S1x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S_, .f32⟩
  | 24 => ⟨S100000x64, .f32⟩
  | 25 => ⟨S100000x64, .i1⟩
  | 26 => ⟨S_, .f32⟩
  | 27 => ⟨S100000x64, .f32⟩
  | 28 => ⟨S100000x64, .f32⟩
  | 29 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v56 : Ref sig .tc := ⟨.hbm, 86, rfl⟩
abbrev main_c_10 : Ref sig .tc := ⟨.hbm, 87, rfl⟩
abbrev main_v57 : Ref sig .tc := ⟨.hbm, 88, rfl⟩
abbrev main_v58 : Ref sig .tc := ⟨.hbm, 89, rfl⟩
abbrev main_c_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_cst_19 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_20 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_21 : Ref sig .tc := ⟨.hbm, 150, rfl⟩
abbrev main_call1_cst : Ref sig .tc := ⟨.hbm, 151, rfl⟩
abbrev main_call1_v0 : Ref sig .tc := ⟨.hbm, 152, rfl⟩
abbrev main_call1_v1 : Ref sig .tc := ⟨.hbm, 153, rfl⟩
abbrev main_call1_v2 : Ref sig .tc := ⟨.hbm, 154, rfl⟩
abbrev main_call1_v3 : Ref sig .tc := ⟨.hbm, 155, rfl⟩
abbrev main_call1_v4 : Ref sig .tc := ⟨.hbm, 156, rfl⟩
abbrev main_v109 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.LinCommon.lean ====
import proofs.«422895_j12790412608056_1_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem off2_zero : (![0, 0] : Fin 2 → ℕ) = fun _ => 0 := by funext a; fin_cases a <;> rfl

-- A whole memref reads each contents of its buffer once, so owning it at `X` is its points-to at the contents that read `X`.
theorem owns_unread (c : Dev nD) {S : Shape} {e : EltTy} (m : Memref sig .tc .vmem S e) (h : m.IsWhole) (X : S.Idx → Elt F e) :
    (owns (c : Thread nD τ) m fullShare X : sProp 𝕄) = (m.view.loc (c : Thread nD τ) ↦[m.view.set]{fullShare} h.unread X) := by
  have h₂ := owns_intro (Val := Elt F) (Ix := Unit) (Name := ℕ) (U := UR sig nD τ) (Lvl := ℕ) (c : Thread nD τ) m fullShare (h.unread X)
  rw [h.read_unread] at h₂
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  exact BI.equiv_iff.mp ⟨h₁, h₂⟩

-- A store through the whole-shape rectangle, made last, leaves a whole buffer at the contents that read its payload.
theorem writes_unread {S : Shape} {e : EltTy} (m : Memref sig .tc .vmem S e) (h : m.IsWhole) (f : m.view.ty.Contents (Elt F))
    {off : Fin S.rank → ℕ} (hz : off = fun _ => 0) (inb : ∀ a, off a + S.size a ≤ S.size a) (w : S.Idx → Elt F e)
    (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.mem_cons_self, View.mem_set_unit_zero hz inb y⟩),
    View.canon_cons_unit_zero hz])

-- A load through the whole-shape rectangle of a whole buffer holding `X` reads `X`.
theorem readAt_whole {S : Shape} {e : EltTy} (m : Memref sig .tc .vmem S e) (h : m.IsWhole)
    {off : Fin S.rank → ℕ} (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

end Cert.Kernel.Hand

end
-- ==== Proof.K.Lin0Run.lean ====
import proofs.«422895_j12790412608056_1_alg».proof.Proof.Gen.Kernel.Skeleton
import proofs.«422895_j12790412608056_1_alg».proof.Proof.Gen.Kernel.Points
import proofs.«422895_j12790412608056_1_alg».proof.Proof.K.LinCommon

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condA0 (i : grid0.Coords) : Prop :=
  (Scalar.cmpi .ne (Scalar.extui (Scalar.cmpi .eq (BitVec.ofNat 32 (i 0).val) 0#32)) 0#32) = 1#1
abbrev condC0 (i : grid0.Coords) : Prop := k0_cond2 i = 1#1

theorem hcondA0 : ∀ t : Fin cfg0.N, condA0 (grid0.coords t) ↔ t.val = 0 :=
  (by decide +kernel : ∀ t : Fin grid0.N, condA0 (grid0.coords t) ↔ t.val = 0)
theorem hcondC0 : ∀ t : Fin cfg0.N, condC0 (grid0.coords t) ↔ t.val = 49 :=
  (by decide +kernel : ∀ t : Fin grid0.N, condC0 (grid0.coords t) ↔ t.val = 49)

theorem live0 : ∀ (w : Fin cfg0.W) (t : Fin cfg0.N), w.val < 6 ∨ condC0 (grid0.coords t) → cfg0.idle w (grid0.coords t) = false := by
  decide +kernel
theorem idle0 : ∀ (w : Fin cfg0.W) (t : Fin cfg0.N), 6 ≤ w.val → ¬condC0 (grid0.coords t) →
    cfg0.idle w (grid0.coords t) = true ∧ (cfg0.win w).flush t = false := by decide +kernel

set_option maxHeartbeats 500000 in
-- One grid point: y is stored, each accumulator (zero at the first point) gains the block's column sum, and at the last point both are copied out.
theorem run0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hAC : condA0 i → ¬condC0 i)
    (x0 x1 d5 : Vec F S2000x64 .f32) (x2 x3 : Vec F S64x64 .f32) (x4 d6 d7 s q : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d5 ∗ owns (c : Thread nD τ) arg7 fullShare d6 ∗ owns (c : Thread nD τ) arg8 fullShare d7 ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg7 fullShare (if condC0 i then (k0_pay5 x0 x1 x2 x3 x4 (if condA0 i then k0_pay2 (F := F) else s)) else d6)
            ∗ owns (c : Thread nD τ) arg8 fullShare (if condC0 i then (k0_pay1 (if condA0 i then k0_pay3 (F := F) else q) (k0_pay6 x0 x1 x2 x3 x4)) else d7)
            ∗ owns (c : Thread nD τ) arg9 fullShare (k0_pay5 x0 x1 x2 x3 x4 (if condA0 i then k0_pay2 (F := F) else s)) ∗ owns (c : Thread nD τ) arg10 fullShare (k0_pay1 (if condA0 i then k0_pay3 (F := F) else q) (k0_pay6 x0 x1 x2 x3 x4))) -∗ K ⟨⟩))
      ⊢ wp frame (wpE (defs₀ (F := F)) Variants.none c none) E (cc0__linear_combine_kernel i arg1 harg1 arg2 harg2 arg3 harg3 arg4 harg4 arg5 harg5 arg6 harg6 arg7 harg7 arg8 harg8 arg9 harg9 arg10 harg10) K := by
  simp only [cc0__linear_combine_kernel_eq_skeleton]; unfold cc0__linear_combine_kernel_skel
  simp only [k0_part1_eq_skeleton, owns_unread c _ harg1, owns_unread c _ harg2, owns_unread c _ harg3, owns_unread c _ harg4,
    owns_unread c _ harg5, owns_unread c _ harg6, owns_unread c _ harg7, owns_unread c _ harg8, owns_unread c _ harg9,
    owns_unread c _ harg10]
  by_cases hA : condA0 i <;> by_cases hC : condC0 i <;> first
    | exact absurd hC (hAC hA)
    | (first | rw [if_pos hC, if_pos hC] | rw [if_neg hC, if_neg hC]
       first | rw [if_pos hA, if_pos hA] | rw [if_neg hA, if_neg hA]
       iintro ⟨H1, H2, H3, H4, H5, H6, H7, H8, H9, H10, Hk⟩
       sl_exec (disch := first | exact hA | exact hC)
       sl_step
       sl_unfold_words
       simp only [writes_unread _ harg6 _ off2_zero, writes_unread _ harg7 _ off2_zero, writes_unread _ harg8 _ off2_zero,
         writes_unread _ harg9 _ off2_zero, writes_unread _ harg10 _ off2_zero, readAt_whole _ harg1 off2_zero,
         readAt_whole _ harg2 off2_zero, readAt_whole _ harg3 off2_zero, readAt_whole _ harg4 off2_zero,
         readAt_whole _ harg5 off2_zero, readAt_whole _ harg9 off2_zero, readAt_whole _ harg10 off2_zero,
         View.readCov_unit_zero (S := S1x64) _ off2_zero]
       iapply Hk; iframe)

end Cert.Kernel.Hand

end
-- ==== Proof.K.Lin0.lean ====
import proofs.«422895_j12790412608056_1_alg».proof.Proof.K.Lin0Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def yblk0 (c : Dev nD) (t : Fin cfg0.N) : Vec F S2000x64 .f32 :=
  k0_pay4 (iblk0 V c 0 t) (iblk0 V c 1 t) (iblk0 V c 2 t) (iblk0 V c 3 t) (iblk0 V c 4 t)

-- The two carried accumulators after point `n`: the column sums of y and of y² over the blocks so far.
def accAt0 (c : Dev nD) : (n : ℕ) → n < cfg0.N → Vec F S1x64 .f32 × Vec F S1x64 .f32
  | 0, h => (k0_pay5 (iblk0 V c 0 ⟨0, h⟩) (iblk0 V c 1 ⟨0, h⟩) (iblk0 V c 2 ⟨0, h⟩) (iblk0 V c 3 ⟨0, h⟩) (iblk0 V c 4 ⟨0, h⟩) (k0_pay2 (F := F)),
             k0_pay1 (k0_pay3 (F := F)) (k0_pay6 (iblk0 V c 0 ⟨0, h⟩) (iblk0 V c 1 ⟨0, h⟩) (iblk0 V c 2 ⟨0, h⟩) (iblk0 V c 3 ⟨0, h⟩) (iblk0 V c 4 ⟨0, h⟩)))
  | n + 1, h => (k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt0 c n (Nat.lt_of_succ_lt h)).1,
             k0_pay1 (accAt0 c n (Nat.lt_of_succ_lt h)).2 (k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)))

abbrev sc0_0 : Memref sig .tc .vmem S1x64 .f32 := Memref.whole cc0_scratch0
abbrev sc0_1 : Memref sig .tc .vmem S1x64 .f32 := Memref.whole cc0_scratch1

-- The call's resources, with the two accumulators owned at `p`.
def accs0 (c : Dev nD) (p : Vec F S1x64 .f32 × Vec F S1x64 .f32) : sProp 𝕄 :=
  iprop(iprop(iprop(owns (c : Thread nD τ) sc0_0 fullShare p.1 ∗ owns (c : Thread nD τ) sc0_1 fullShare p.2)
      ∗ Pipeline.scopedRestBut (Ix := Unit) (Name := ℕ) (U := UR sig nD τ) (Lvl := ℕ) (Val := Elt F) spec0 c [cc0_scratch0, cc0_scratch1]) ∗ (∃ r, prngReg c r))

-- The invariant before position `n`: after a point, the accumulators hold what that point left.
def Phi0 (c : Dev nD) : (n : ℕ) → n ≤ cfg0.N → sProp 𝕄
  | 0, _ => Pipeline.ΦA spec0 c
  | n + 1, hn => accs0 c (accAt0 V c n hn)

theorem Phi0_zero (c : Dev nD) (n : ℕ) (h : n ≤ cfg0.N) (hz : n = 0) : Phi0 V c n h = Pipeline.ΦA spec0 c := by
  subst hz; rfl

theorem Phi0_pos (c : Dev nD) (n : ℕ) (h : n ≤ cfg0.N) (hz : n ≠ 0) : Phi0 V c n h = accs0 c (accAt0 V c (n - 1) (by omega)) := by
  cases n with
  | zero => exact absurd rfl hz
  | succ n => rfl

theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [sc0_0, sc0_1, owns_whole]; try rfl

-- Forgetting the accumulators' contents gives the call's resources back.
theorem accs0_out (c : Dev nD) (p : Vec F S1x64 .f32 × Vec F S1x64 .f32) : accs0 c p ⊢ Pipeline.ΦA spec0 c := by
  rw [PhiA0_eq]; unfold accs0
  iintro ⟨⟨⟨HS0, HS1⟩, Hr⟩, Hg⟩
  iframe Hr Hg
  isplitl [HS0]; · iexists _; iexact HS0
  iexists _; iexact HS1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => yblk0 V c t
    | ⟨6, _⟩ => (accAt0 V c t.val t.isLt).1
    | ⟨7, _⟩ => (accAt0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_5 (c : Dev nD) (t : Fin cfg0.N) : (dat0 V c).after 5 t = yblk0 V c t := by dsimp only [dat0]
theorem after0_6 (c : Dev nD) (t : Fin cfg0.N) : (dat0 V c).after 6 t = (accAt0 V c t.val t.isLt).1 := by dsimp only [dat0]
theorem after0_7 (c : Dev nD) (t : Fin cfg0.N) : (dat0 V c).after 7 t = (accAt0 V c t.val t.isLt).2 := by dsimp only [dat0]

theorem hin0 (c : Dev nD) : Pipeline.ΦA spec0 c ⊢ (dat0 (F := F) V c).Φ 0 := Entails.refl _

theorem hout0 (c : Dev nD) : (dat0 (F := F) V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 50 := N_0; omega)]
  exact accs0_out c _

-- Before a point the invariant holds the accumulators at some contents: after the first point, what the point before left.
theorem Phi0_open (c : Dev nD) (t : Fin cfg0.N) :
    (dat0 V c).Φ t.castSucc ⊢ iprop(∃ p, ⌜t.val ≠ 0 → accAt0 V c (t.val - 1) (by omega) = p⌝ ∗ accs0 c p) := by
  rw [show (dat0 V c).Φ t.castSucc = Phi0 V c t.val (Nat.le_of_lt t.isLt) from by dsimp only [dat0]; simp only [Fin.coe_castSucc]]
  by_cases hz : t.val = 0
  · rw [Phi0_zero V c _ _ hz, PhiA0_eq]
    iintro ⟨⟨⟨⟨%s, HS0⟩, ⟨%q, HS1⟩⟩, Hr⟩, Hg⟩
    iexists (s, q); isplitr; · ipureintro; exact fun h => absurd hz h
    unfold accs0; dsimp only; iframe
  · rw [Phi0_pos V c _ _ hz]
    iintro H; iexists _; isplitr; · ipureintro; exact fun _ => rfl
    iexact H

-- One point's step of the accumulators, from the contents `p` the point found them at.
theorem accAt0_step (c : Dev nD) (t : Fin cfg0.N) (p : Vec F S1x64 .f32 × Vec F S1x64 .f32)
    (hp : t.val ≠ 0 → accAt0 V c (t.val - 1) (by omega) = p) :
    accAt0 V c t.val t.isLt = (k0_pay5 (iblk0 V c 0 t) (iblk0 V c 1 t) (iblk0 V c 2 t) (iblk0 V c 3 t) (iblk0 V c 4 t) (if condA0 (grid0.coords t) then k0_pay2 (F := F) else p.1),
      k0_pay1 (if condA0 (grid0.coords t) then k0_pay3 (F := F) else p.2) (k0_pay6 (iblk0 V c 0 t) (iblk0 V c 1 t) (iblk0 V c 2 t) (iblk0 V c 3 t) (iblk0 V c 4 t))) := by
  by_cases hz : t.val = 0
  · rw [if_pos ((hcondA0 t).mpr hz), if_pos ((hcondA0 t).mpr hz)]
    obtain ⟨n, hn⟩ := t; obtain rfl : n = 0 := hz; rfl
  · rw [if_neg (mt (hcondA0 t).mp hz), if_neg (mt (hcondA0 t).mp hz), ← hp hz]
    obtain ⟨n, hn⟩ := t
    cases n with
    | zero => exact absurd rfl hz
    | succ n => rfl

-- At every point the body reads each input's block of the array.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
    exact ((dat0 V c).before_in_eq_fetched _ rfl (fun _ => rfl) (fun _ _ _ => rfl)
      (fun t => by dsimp only [dat0]; unfold Dat.blockOf iblk0; try rfl) t d).trans
      (by unfold Dat.fetched Dat.blockOf iblk0; rw [A_eq0]; try rfl)

theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = iblk0 V c 3 t ∧ (dat0 V c).after 4 t = iblk0 V c 4 t := by
  dsimp only [dat0]; exact ⟨rfl, rfl, rfl, rfl, rfl⟩

theorem leaves0 (c : Dev nD) (w : Fin cfg0.W) (t : Fin cfg0.N) (h : w.val < 6 ∨ condC0 (grid0.coords t)) :
    (dat0 V c).leavesExact w t = owns (c : Thread nD τ) ((cfg0.win w).stage (cfg0.slots t w)) fullShare ((dat0 V c).after w t) := by
  unfold Dat.leavesExact; rw [live0 w t h]

theorem sound_body0 (c : Dev nD) (t : Fin cfg0.N) :
    iprop((dat0 V c).Φ t.castSucc ∗ (dat0 V c).owesAt () t.castSucc
      ∗ bigSep Finset.univ fun w => iprop(∃ d, owns (c : Thread nD τ) ((cfg0.win w).stage (cfg0.slots t w)) fullShare ((dat0 V c).before w t d)))
    ⊢ wp frame (wpE (defs₀ (F := F)) Variants.none c none) Set.univ (bodyAt0 t) (fun _ =>
      iprop((dat0 V c).Φ t.succ ∗ (dat0 V c).owesAt () t.succ ∗ bigSep Finset.univ fun w => (dat0 V c).leavesExact w t)) := by
  rw [bigSep_W0, bigSep_W0]
  obtain ⟨b0, b1, b2, b3, b4⟩ := before0 V c t
  obtain ⟨a0, a1, a2, a3, a4⟩ := after0 V c t
  simp only [b0, b1, b2, b3, b4]
  rw [show (dat0 V c).owesAt () t.succ = (dat0 V c).owesAt () t.castSucc from rfl,
    show (dat0 V c).Φ t.succ = accs0 c (accAt0 V c t.val t.isLt) from rfl,
    leaves0 V c 0 t (.inl (by decide)), leaves0 V c 1 t (.inl (by decide)), leaves0 V c 2 t (.inl (by decide)),
    leaves0 V c 3 t (.inl (by decide)), leaves0 V c 4 t (.inl (by decide)), leaves0 V c 5 t (.inl (by decide)), a0, a1, a2, a3, a4, after0_5]
  unfold yblk0
  have hAC : condA0 (grid0.coords t) → ¬condC0 (grid0.coords t) := fun a b => by
    have := (hcondA0 t).mp a; have := (hcondC0 t).mp b; omega
  refine (sep_mono_left (Phi0_open V c t)).trans ?_
  unfold accs0
  iintro ⟨⟨%p, %hp, ⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0 c (grid0.coords t) (st0_0 t) _ (st0_1 t) _ (st0_2 t) _ (st0_3 t) _
    (st0_4 t) _ (st0_5 t) _ (st0_6 t) _ (st0_7 t) _
    sc0_0 _ sc0_1 _ hAC (iblk0 V c 0 t) (iblk0 V c 1 t) ((dat0 V c).before 5 t d5)
    (iblk0 V c 2 t) (iblk0 V c 3 t) (iblk0 V c 4 t) ((dat0 V c).before 6 t d6) ((dat0 V c).before 7 t d7) p.1 p.2 Set.univ _)
  iframe H0 H1 H2 H3 H4 H5 H6 H7 HS0 HS1
  iintro ⟨H0, H1, H2, H3, H4, H5, H6, H7, HS0, HS1⟩
  by_cases hC : condC0 (grid0.coords t)
  · rw [if_pos hC, if_pos hC, leaves0 V c 6 t (.inr hC), leaves0 V c 7 t (.inr hC), after0_6, after0_7, accAt0_step V c t p hp]
    dsimp only; iframe
  · rw [if_neg hC, if_neg hC, Dat.leavesExact_idle (dat0 V c) 6 t (idle0 6 t (by decide) hC).1 (idle0 6 t (by decide) hC).2,
      Dat.leavesExact_idle (dat0 V c) 7 t (idle0 7 t (by decide) hC).1 (idle0 7 t (by decide) hC).2, accAt0_step V c t p hp]
    dsimp only; iframe
    isplitl [H6]; · iexists _; iexact H6
    iexists _; iexact H7

theorem body_obligation0 (c : Dev nD) : BodyObligation (dat0 (F := F) V c) (defs₀ (F := F)) Variants.none () Set.univ :=
  sound_body0 V c

end Region

end Cert.Kernel.Hand

end
-- ==== Proof.K.BnCommon.lean ====
import proofs.«422895_j12790412608056_1_alg».proof.Proof.Gen.Kernel.Launch
import proofs.«422895_j12790412608056_1_alg».proof.Proof.Gen.Kernel.Skeleton
import proofs.«422895_j12790412608056_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic
open Cert.Kernel Cert.Kernel.Gen

variable {F : FTy → Type} [FloatOps F]

theorem zero_offsets : (![0, 0] : Fin 2 → Nat) = fun _ => 0 := funext fun a => by fin_cases a <;> rfl

theorem ld_tab (X : Vec F S2000x64 .f32) :
    View.ld X (Rect.unit (s := S2000x64) ![0, 0] S2000x64.size inb_S2000x64_S2000x64_0_0) = X :=
  View.ld_unit_zero zero_offsets _ X

theorem ld_row (X : Vec F S1x64 .f32) :
    View.ld X (Rect.unit (s := S1x64) ![0, 0] S1x64.size inb_S1x64_S1x64_0_0) = X :=
  View.ld_unit_zero zero_offsets _ X

end Cert.Kernel.Hand

end
-- ==== Proof.K.Bn1.lean ====
import proofs.«422895_j12790412608056_1_alg».proof.Proof.K.BnCommon

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit (s := S2000x64) ![0, 0] S2000x64.size inb_S2000x64_S2000x64_0_0

def out1_5 (x0 : Vec F S2000x64 .f32) (x1 x2 x3 x4 : Vec F S1x64 .f32) : Vec F S2000x64 .f32 :=
  View.canon [⟨r1_0, k1_pay1 x0 x1 x2 x3 x4⟩]

set_option maxHeartbeats 400000 in
-- Five loads, a load nothing reads, and one store of the whole block: the inputs stay, the output holds the payload.
theorem sound_kernel1 (c : Dev nD) (E : Set ℕ) (i : grid1.Coords)
    (a1 a6 : Memref sig .tc .vmem S2000x64 .f32) (a2 a3 a4 a5 : Memref sig .tc .vmem S1x64 .f32)
    (h1 : a1.IsWhole) (h2 : a2.IsWhole) (h3 : a3.IsWhole) (h4 : a4.IsWhole) (h5 : a5.IsWhole) (h6 : a6.IsWhole)
    (x0 : Vec F S2000x64 .f32) (x1 x2 x3 x4 : Vec F S1x64 .f32) (K : PUnit → sProp 𝕄) :
    iprop(owns c.tc a1 fullShare x0 ∗ owns c.tc a2 fullShare x1
        ∗ owns c.tc a3 fullShare x2 ∗ owns c.tc a4 fullShare x3
        ∗ owns c.tc a5 fullShare x4 ∗ (∃ d, owns c.tc a6 fullShare d)
        ∗ (iprop(owns c.tc a1 fullShare x0 ∗ owns c.tc a2 fullShare x1
            ∗ owns c.tc a3 fullShare x2 ∗ owns c.tc a4 fullShare x3
            ∗ owns c.tc a5 fullShare x4
            ∗ owns c.tc a6 fullShare (out1_5 x0 x1 x2 x3 x4)) -∗ K ⟨⟩))
      ⊢ wp frame (wpE (defs₀ (F := F)) Variants.none c none) E
          (cc1__bn_leaky_kernel i a1 h1 a2 h2 a3 h3 a4 h4 a5 h5 a6 h6) K := by
  simp only [cc1__bn_leaky_kernel_eq_skeleton]; unfold cc1__bn_leaky_kernel_skel owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ fun y => ⟨_, List.mem_singleton_self _, View.mem_set_unit_zero zero_offsets inb_S2000x64_S2000x64_0_0 y⟩]
  simp only [out1_5, View.readAt_eq_ld]
  rw [ld_tab, ld_row, ld_row, ld_row, ld_row]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

-- The body reads each input's block at its point, and leaves it as it was.
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ (∀ d, (dat1 V c).before 4 t d = iblk1 V c 4 t) := by
  refine ⟨?_, ?_, ?_, ?_, ?_⟩ <;> intro d <;>
    exact ((dat1 V c).before_in_eq_fetched _ rfl (fun _ => rfl) (fun _ _ _ => rfl)
      (fun t => by dsimp only [dat1]; unfold Dat.blockOf iblk1; try rfl) t d).trans
      (by unfold Dat.fetched Dat.blockOf iblk1; dsimp only [dat1]; try rfl)

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp only [before1 V c t]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply sound_kernel1
  iframe H0 H1 H2 H3 H4
  isplitl [H5]; · iexists _; iexact H5
  iintro ⟨H0, H1, H2, H3, H4, H5⟩
  iframe

end Region

end Cert.Kernel.Hand

end
-- ==== Proof.K.Lin2Run.lean ====
import proofs.«422895_j12790412608056_1_alg».proof.Proof.Gen.Kernel.Skeleton
import proofs.«422895_j12790412608056_1_alg».proof.Proof.Gen.Kernel.Points
import proofs.«422895_j12790412608056_1_alg».proof.Proof.K.LinCommon

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condA2 (i : grid2.Coords) : Prop :=
  (Scalar.cmpi .ne (Scalar.extui (Scalar.cmpi .eq (BitVec.ofNat 32 (i 0).val) 0#32)) 0#32) = 1#1
abbrev condC2 (i : grid2.Coords) : Prop := k2_cond2 i = 1#1

theorem hcondA2 : ∀ t : Fin cfg2.N, condA2 (grid2.coords t) ↔ t.val = 0 :=
  (by decide +kernel : ∀ t : Fin grid2.N, condA2 (grid2.coords t) ↔ t.val = 0)
theorem hcondC2 : ∀ t : Fin cfg2.N, condC2 (grid2.coords t) ↔ t.val = 49 :=
  (by decide +kernel : ∀ t : Fin grid2.N, condC2 (grid2.coords t) ↔ t.val = 49)

theorem live2 : ∀ (w : Fin cfg2.W) (t : Fin cfg2.N), w.val < 6 ∨ condC2 (grid2.coords t) → cfg2.idle w (grid2.coords t) = false := by
  decide +kernel
theorem idle2 : ∀ (w : Fin cfg2.W) (t : Fin cfg2.N), 6 ≤ w.val → ¬condC2 (grid2.coords t) →
    cfg2.idle w (grid2.coords t) = true ∧ (cfg2.win w).flush t = false := by decide +kernel

set_option maxHeartbeats 500000 in
-- One grid point: y is stored, each accumulator (zero at the first point) gains the block's column sum, and at the last point both are copied out.
theorem run2 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hAC : condA2 i → ¬condC2 i)
    (x0 x1 d5 : Vec F S2000x64 .f32) (x2 x3 : Vec F S64x64 .f32) (x4 d6 d7 s q : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d5 ∗ owns (c : Thread nD τ) arg7 fullShare d6 ∗ owns (c : Thread nD τ) arg8 fullShare d7 ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay4 x0 x1 x2 x3 x4)
            ∗ owns (c : Thread nD τ) arg7 fullShare (if condC2 i then (k2_pay5 x0 x1 x2 x3 x4 (if condA2 i then k2_pay2 (F := F) else s)) else d6)
            ∗ owns (c : Thread nD τ) arg8 fullShare (if condC2 i then (k2_pay1 (if condA2 i then k2_pay3 (F := F) else q) (k2_pay6 x0 x1 x2 x3 x4)) else d7)
            ∗ owns (c : Thread nD τ) arg9 fullShare (k2_pay5 x0 x1 x2 x3 x4 (if condA2 i then k2_pay2 (F := F) else s)) ∗ owns (c : Thread nD τ) arg10 fullShare (k2_pay1 (if condA2 i then k2_pay3 (F := F) else q) (k2_pay6 x0 x1 x2 x3 x4))) -∗ K ⟨⟩))
      ⊢ wp frame (wpE (defs₀ (F := F)) Variants.none c none) E (cc2__linear_combine_kernel i arg1 harg1 arg2 harg2 arg3 harg3 arg4 harg4 arg5 harg5 arg6 harg6 arg7 harg7 arg8 harg8 arg9 harg9 arg10 harg10) K := by
  simp only [cc2__linear_combine_kernel_eq_skeleton]; unfold cc2__linear_combine_kernel_skel
  simp only [k2_part1_eq_skeleton, owns_unread c _ harg1, owns_unread c _ harg2, owns_unread c _ harg3, owns_unread c _ harg4,
    owns_unread c _ harg5, owns_unread c _ harg6, owns_unread c _ harg7, owns_unread c _ harg8, owns_unread c _ harg9,
    owns_unread c _ harg10]
  by_cases hA : condA2 i <;> by_cases hC : condC2 i <;> first
    | exact absurd hC (hAC hA)
    | (first | rw [if_pos hC, if_pos hC] | rw [if_neg hC, if_neg hC]
       first | rw [if_pos hA, if_pos hA] | rw [if_neg hA, if_neg hA]
       iintro ⟨H1, H2, H3, H4, H5, H6, H7, H8, H9, H10, Hk⟩
       sl_exec (disch := first | exact hA | exact hC)
       sl_step
       sl_unfold_words
       simp only [writes_unread _ harg6 _ off2_zero, writes_unread _ harg7 _ off2_zero, writes_unread _ harg8 _ off2_zero,
         writes_unread _ harg9 _ off2_zero, writes_unread _ harg10 _ off2_zero, readAt_whole _ harg1 off2_zero,
         readAt_whole _ harg2 off2_zero, readAt_whole _ harg3 off2_zero, readAt_whole _ harg4 off2_zero,
         readAt_whole _ harg5 off2_zero, readAt_whole _ harg9 off2_zero, readAt_whole _ harg10 off2_zero,
         View.readCov_unit_zero (S := S1x64) _ off2_zero]
       iapply Hk; iframe)

end Cert.Kernel.Hand

end
-- ==== Proof.K.Lin2.lean ====
import proofs.«422895_j12790412608056_1_alg».proof.Proof.K.Lin2Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def yblk2 (c : Dev nD) (t : Fin cfg2.N) : Vec F S2000x64 .f32 :=
  k2_pay4 (iblk2 V c 0 t) (iblk2 V c 1 t) (iblk2 V c 2 t) (iblk2 V c 3 t) (iblk2 V c 4 t)

-- The two carried accumulators after point `n`: the column sums of y and of y² over the blocks so far.
def accAt2 (c : Dev nD) : (n : ℕ) → n < cfg2.N → Vec F S1x64 .f32 × Vec F S1x64 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) (k2_pay2 (F := F)),
             k2_pay1 (k2_pay3 (F := F)) (k2_pay6 (iblk2 V c 0 ⟨0, h⟩) (iblk2 V c 1 ⟨0, h⟩) (iblk2 V c 2 ⟨0, h⟩) (iblk2 V c 3 ⟨0, h⟩) (iblk2 V c 4 ⟨0, h⟩)))
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accAt2 c n (Nat.lt_of_succ_lt h)).1,
             k2_pay1 (accAt2 c n (Nat.lt_of_succ_lt h)).2 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)))

abbrev sc2_0 : Memref sig .tc .vmem S1x64 .f32 := Memref.whole cc2_scratch0
abbrev sc2_1 : Memref sig .tc .vmem S1x64 .f32 := Memref.whole cc2_scratch1

-- The call's resources, with the two accumulators owned at `p`.
def accs2 (c : Dev nD) (p : Vec F S1x64 .f32 × Vec F S1x64 .f32) : sProp 𝕄 :=
  iprop(iprop(iprop(owns (c : Thread nD τ) sc2_0 fullShare p.1 ∗ owns (c : Thread nD τ) sc2_1 fullShare p.2)
      ∗ Pipeline.scopedRestBut (Ix := Unit) (Name := ℕ) (U := UR sig nD τ) (Lvl := ℕ) (Val := Elt F) spec2 c [cc2_scratch0, cc2_scratch1]) ∗ (∃ r, prngReg c r))

-- The invariant before position `n`: after a point, the accumulators hold what that point left.
def Phi2 (c : Dev nD) : (n : ℕ) → n ≤ cfg2.N → sProp 𝕄
  | 0, _ => Pipeline.ΦA spec2 c
  | n + 1, hn => accs2 c (accAt2 V c n hn)

theorem Phi2_zero (c : Dev nD) (n : ℕ) (h : n ≤ cfg2.N) (hz : n = 0) : Phi2 V c n h = Pipeline.ΦA spec2 c := by
  subst hz; rfl

theorem Phi2_pos (c : Dev nD) (n : ℕ) (h : n ≤ cfg2.N) (hz : n ≠ 0) : Phi2 V c n h = accs2 c (accAt2 V c (n - 1) (by omega)) := by
  cases n with
  | zero => exact absurd rfl hz
  | succ n => rfl

theorem PhiA2_eq (c : Dev nD) :
    (Pipeline.ΦA spec2 c : sProp 𝕄)
      = iprop(iprop(iprop((∃ d, owns (c : Thread nD τ) sc2_0 fullShare d) ∗ (∃ d, owns (c : Thread nD τ) sc2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [sc2_0, sc2_1, owns_whole]; try rfl

-- Forgetting the accumulators' contents gives the call's resources back.
theorem accs2_out (c : Dev nD) (p : Vec F S1x64 .f32 × Vec F S1x64 .f32) : accs2 c p ⊢ Pipeline.ΦA spec2 c := by
  rw [PhiA2_eq]; unfold accs2
  iintro ⟨⟨⟨HS0, HS1⟩, Hr⟩, Hg⟩
  iframe Hr Hg
  isplitl [HS0]; · iexists _; iexact HS0
  iexists _; iexact HS1

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => yblk2 V c t
    | ⟨6, _⟩ => (accAt2 V c t.val t.isLt).1
    | ⟨7, _⟩ => (accAt2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_5 (c : Dev nD) (t : Fin cfg2.N) : (dat2 V c).after 5 t = yblk2 V c t := by dsimp only [dat2]
theorem after2_6 (c : Dev nD) (t : Fin cfg2.N) : (dat2 V c).after 6 t = (accAt2 V c t.val t.isLt).1 := by dsimp only [dat2]
theorem after2_7 (c : Dev nD) (t : Fin cfg2.N) : (dat2 V c).after 7 t = (accAt2 V c t.val t.isLt).2 := by dsimp only [dat2]

theorem hin2 (c : Dev nD) : Pipeline.ΦA spec2 c ⊢ (dat2 (F := F) V c).Φ 0 := Entails.refl _

theorem hout2 (c : Dev nD) : (dat2 (F := F) V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 50 := N_2; omega)]
  exact accs2_out c _

-- Before a point the invariant holds the accumulators at some contents: after the first point, what the point before left.
theorem Phi2_open (c : Dev nD) (t : Fin cfg2.N) :
    (dat2 V c).Φ t.castSucc ⊢ iprop(∃ p, ⌜t.val ≠ 0 → accAt2 V c (t.val - 1) (by omega) = p⌝ ∗ accs2 c p) := by
  rw [show (dat2 V c).Φ t.castSucc = Phi2 V c t.val (Nat.le_of_lt t.isLt) from by dsimp only [dat2]; simp only [Fin.coe_castSucc]]
  by_cases hz : t.val = 0
  · rw [Phi2_zero V c _ _ hz, PhiA2_eq]
    iintro ⟨⟨⟨⟨%s, HS0⟩, ⟨%q, HS1⟩⟩, Hr⟩, Hg⟩
    iexists (s, q); isplitr; · ipureintro; exact fun h => absurd hz h
    unfold accs2; dsimp only; iframe
  · rw [Phi2_pos V c _ _ hz]
    iintro H; iexists _; isplitr; · ipureintro; exact fun _ => rfl
    iexact H

-- One point's step of the accumulators, from the contents `p` the point found them at.
theorem accAt2_step (c : Dev nD) (t : Fin cfg2.N) (p : Vec F S1x64 .f32 × Vec F S1x64 .f32)
    (hp : t.val ≠ 0 → accAt2 V c (t.val - 1) (by omega) = p) :
    accAt2 V c t.val t.isLt = (k2_pay5 (iblk2 V c 0 t) (iblk2 V c 1 t) (iblk2 V c 2 t) (iblk2 V c 3 t) (iblk2 V c 4 t) (if condA2 (grid2.coords t) then k2_pay2 (F := F) else p.1),
      k2_pay1 (if condA2 (grid2.coords t) then k2_pay3 (F := F) else p.2) (k2_pay6 (iblk2 V c 0 t) (iblk2 V c 1 t) (iblk2 V c 2 t) (iblk2 V c 3 t) (iblk2 V c 4 t))) := by
  by_cases hz : t.val = 0
  · rw [if_pos ((hcondA2 t).mpr hz), if_pos ((hcondA2 t).mpr hz)]
    obtain ⟨n, hn⟩ := t; obtain rfl : n = 0 := hz; rfl
  · rw [if_neg (mt (hcondA2 t).mp hz), if_neg (mt (hcondA2 t).mp hz), ← hp hz]
    obtain ⟨n, hn⟩ := t
    cases n with
    | zero => exact absurd rfl hz
    | succ n => rfl

-- At every point the body reads each input's block of the array.
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> intro d <;>
    exact ((dat2 V c).before_in_eq_fetched _ rfl (fun _ => rfl) (fun _ _ _ => rfl)
      (fun t => by dsimp only [dat2]; unfold Dat.blockOf iblk2; try rfl) t d).trans
      (by unfold Dat.fetched Dat.blockOf iblk2; rw [A_eq2]; try rfl)

theorem after2 (c : Dev nD) (t : Fin cfg2.N) : (dat2 V c).after 0 t = iblk2 V c 0 t ∧ (dat2 V c).after 1 t = iblk2 V c 1 t
    ∧ (dat2 V c).after 2 t = iblk2 V c 2 t ∧ (dat2 V c).after 3 t = iblk2 V c 3 t ∧ (dat2 V c).after 4 t = iblk2 V c 4 t := by
  dsimp only [dat2]; exact ⟨rfl, rfl, rfl, rfl, rfl⟩

theorem leaves2 (c : Dev nD) (w : Fin cfg2.W) (t : Fin cfg2.N) (h : w.val < 6 ∨ condC2 (grid2.coords t)) :
    (dat2 V c).leavesExact w t = owns (c : Thread nD τ) ((cfg2.win w).stage (cfg2.slots t w)) fullShare ((dat2 V c).after w t) := by
  unfold Dat.leavesExact; rw [live2 w t h]

theorem sound_body2 (c : Dev nD) (t : Fin cfg2.N) :
    iprop((dat2 V c).Φ t.castSucc ∗ (dat2 V c).owesAt () t.castSucc
      ∗ bigSep Finset.univ fun w => iprop(∃ d, owns (c : Thread nD τ) ((cfg2.win w).stage (cfg2.slots t w)) fullShare ((dat2 V c).before w t d)))
    ⊢ wp frame (wpE (defs₀ (F := F)) Variants.none c none) Set.univ (bodyAt2 t) (fun _ =>
      iprop((dat2 V c).Φ t.succ ∗ (dat2 V c).owesAt () t.succ ∗ bigSep Finset.univ fun w => (dat2 V c).leavesExact w t)) := by
  rw [bigSep_W2, bigSep_W2]
  obtain ⟨b0, b1, b2, b3, b4⟩ := before2 V c t
  obtain ⟨a0, a1, a2, a3, a4⟩ := after2 V c t
  simp only [b0, b1, b2, b3, b4]
  rw [show (dat2 V c).owesAt () t.succ = (dat2 V c).owesAt () t.castSucc from rfl,
    show (dat2 V c).Φ t.succ = accs2 c (accAt2 V c t.val t.isLt) from rfl,
    leaves2 V c 0 t (.inl (by decide)), leaves2 V c 1 t (.inl (by decide)), leaves2 V c 2 t (.inl (by decide)),
    leaves2 V c 3 t (.inl (by decide)), leaves2 V c 4 t (.inl (by decide)), leaves2 V c 5 t (.inl (by decide)), a0, a1, a2, a3, a4, after2_5]
  unfold yblk2
  have hAC : condA2 (grid2.coords t) → ¬condC2 (grid2.coords t) := fun a b => by
    have := (hcondA2 t).mp a; have := (hcondC2 t).mp b; omega
  refine (sep_mono_left (Phi2_open V c t)).trans ?_
  unfold accs2
  iintro ⟨⟨%p, %hp, ⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run2 c (grid2.coords t) (st2_0 t) _ (st2_1 t) _ (st2_2 t) _ (st2_3 t) _
    (st2_4 t) _ (st2_5 t) _ (st2_6 t) _ (st2_7 t) _
    sc2_0 _ sc2_1 _ hAC (iblk2 V c 0 t) (iblk2 V c 1 t) ((dat2 V c).before 5 t d5)
    (iblk2 V c 2 t) (iblk2 V c 3 t) (iblk2 V c 4 t) ((dat2 V c).before 6 t d6) ((dat2 V c).before 7 t d7) p.1 p.2 Set.univ _)
  iframe H0 H1 H2 H3 H4 H5 H6 H7 HS0 HS1
  iintro ⟨H0, H1, H2, H3, H4, H5, H6, H7, HS0, HS1⟩
  by_cases hC : condC2 (grid2.coords t)
  · rw [if_pos hC, if_pos hC, leaves2 V c 6 t (.inr hC), leaves2 V c 7 t (.inr hC), after2_6, after2_7, accAt2_step V c t p hp]
    dsimp only; iframe
  · rw [if_neg hC, if_neg hC, Dat.leavesExact_idle (dat2 V c) 6 t (idle2 6 t (by decide) hC).1 (idle2 6 t (by decide) hC).2,
      Dat.leavesExact_idle (dat2 V c) 7 t (idle2 7 t (by decide) hC).1 (idle2 7 t (by decide) hC).2, accAt2_step V c t p hp]
    dsimp only; iframe
    isplitl [H6]; · iexists _; iexact H6
    iexists _; iexact H7

theorem body_obligation2 (c : Dev nD) : BodyObligation (dat2 (F := F) V c) (defs₀ (F := F)) Variants.none () Set.univ :=
  sound_body2 V c

end Region

end Cert.Kernel.Hand

end
-- ==== Proof.K.Bn3.lean ====
import proofs.«422895_j12790412608056_1_alg».proof.Proof.K.BnCommon

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0

def out3_5 (x0 : Vec F S2000x64 .f32) (x1 x2 x3 x4 : Vec F S1x64 .f32) : Vec F S2000x64 .f32 :=
  View.canon [⟨r3_0, k3_pay1 x0 x1 x2 x3 x4⟩]

set_option maxHeartbeats 400000 in
-- Five loads, a load nothing reads, and one store of the whole block: the inputs stay, the output holds the payload.
theorem sound_kernel3 (c : Dev nD) (E : Set ℕ) (i : grid3.Coords)
    (a1 a6 : Memref sig .tc .vmem S2000x64 .f32) (a2 a3 a4 a5 : Memref sig .tc .vmem S1x64 .f32)
    (h1 : a1.IsWhole) (h2 : a2.IsWhole) (h3 : a3.IsWhole) (h4 : a4.IsWhole) (h5 : a5.IsWhole) (h6 : a6.IsWhole)
    (x0 : Vec F S2000x64 .f32) (x1 x2 x3 x4 : Vec F S1x64 .f32) (K : PUnit → sProp 𝕄) :
    iprop(owns c.tc a1 fullShare x0 ∗ owns c.tc a2 fullShare x1
        ∗ owns c.tc a3 fullShare x2 ∗ owns c.tc a4 fullShare x3
        ∗ owns c.tc a5 fullShare x4 ∗ (∃ d, owns c.tc a6 fullShare d)
        ∗ (iprop(owns c.tc a1 fullShare x0 ∗ owns c.tc a2 fullShare x1
            ∗ owns c.tc a3 fullShare x2 ∗ owns c.tc a4 fullShare x3
            ∗ owns c.tc a5 fullShare x4
            ∗ owns c.tc a6 fullShare (out3_5 x0 x1 x2 x3 x4)) -∗ K ⟨⟩))
      ⊢ wp frame (wpE (defs₀ (F := F)) Variants.none c none) E
          (cc3__bn_leaky_kernel i a1 h1 a2 h2 a3 h3 a4 h4 a5 h5 a6 h6) K := by
  simp only [cc3__bn_leaky_kernel_eq_skeleton]; unfold cc3__bn_leaky_kernel_skel owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ fun y => ⟨_, List.mem_singleton_self _, View.mem_set_unit_zero zero_offsets inb_S2000x64_S2000x64_0_0 y⟩]
  simp only [out3_5, View.readAt_eq_ld]
  rw [ld_tab, ld_row, ld_row, ld_row, ld_row]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

-- The body reads each input's block at its point, and leaves it as it was.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) := by
  refine ⟨?_, ?_, ?_, ?_, ?_⟩ <;> intro d <;>
    exact ((dat3 V c).before_in_eq_fetched _ rfl (fun _ => rfl) (fun _ _ _ => rfl)
      (fun t => by dsimp only [dat3]; unfold Dat.blockOf iblk3; try rfl) t d).trans
      (by unfold Dat.fetched Dat.blockOf iblk3; dsimp only [dat3]; try rfl)

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp only [before3 V c t]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply sound_kernel3
  iframe H0 H1 H2 H3 H4
  isplitl [H5]; · iexists _; iexact H5
  iintro ⟨H0, H1, H2, H3, H4, H5⟩
  iframe

end Region

end Cert.Kernel.Hand

end
-- ==== Proof.K.RunDefs.lean ====
import proofs.«422895_j12790412608056_1_alg».proof.Proof.K.Lin0
import proofs.«422895_j12790412608056_1_alg».proof.Proof.K.Bn1
import proofs.«422895_j12790412608056_1_alg».proof.Proof.K.Lin2
import proofs.«422895_j12790412608056_1_alg».proof.Proof.K.Bn3
import proofs.«422895_j12790412608056_1_alg».proof.Proof.Gen.Kernel.Regions
import Idealize.ShloMosaic.Lib.Pipeline.FrameSuffix

noncomputable section

namespace Cert.Kernel.Hand

open Idealize.ShloMosaic Idealize.ShloMosaic.TcCoe
open Cert.Kernel Cert.Kernel.Gen

variable {F : FTy → Type} [FloatOps F]

variable (m : (ℓ : Loc nD τ sig) → Buf (Elt F) ℓ)

abbrev E3 : (c : Dev nD) → (b : Ref sig .tc) → Buf (Elt F) ((c : Thread nD τ).loc b) := fun c b => V3 m c b
def X4 (c : Dev nD) : Valuation τ sig (Elt F) :=
  Pipeline.withArrays spec0 c (V3 m c) fun w => (dat0 (E3 m) c).arrAt w cfg0.N
theorem X4_arr (c : Dev nD) (w : Fin cfg0.W) :
    X4 m c (Proc.devRef .tc (Pipeline.arrRef spec0 w)) = (dat0 (E3 m) c).arrAt w cfg0.N :=
  Pipeline.withArrays_arr spec0 launch0.win.arr_inj c _ _ w
def O4 : Outs (F := F) := fun _ r c => X4 m c (Proc.devRef .tc r)

abbrev E5 : (c : Dev nD) → (b : Ref sig .tc) → Buf (Elt F) ((c : Thread nD τ).loc b) := fun c b => V5 m (O4 m) c b
def X6 (c : Dev nD) : Valuation τ sig (Elt F) :=
  Pipeline.withArrays spec1 c (V5 m (O4 m) c) fun w => (dat1 (E5 m) c).arrAt w cfg1.N
theorem X6_arr (c : Dev nD) (w : Fin cfg1.W) :
    X6 m c (Proc.devRef .tc (Pipeline.arrRef spec1 w)) = (dat1 (E5 m) c).arrAt w cfg1.N :=
  Pipeline.withArrays_arr spec1 launch1.win.arr_inj c _ _ w
def O6 : Outs (F := F) := fun J r c => match J with
  | 4 => X4 m c (Proc.devRef .tc r)
  | _ => X6 m c (Proc.devRef .tc r)

abbrev E8 : (c : Dev nD) → (b : Ref sig .tc) → Buf (Elt F) ((c : Thread nD τ).loc b) := fun c b => V8 m (O6 m) c b
def X9 (c : Dev nD) : Valuation τ sig (Elt F) :=
  Pipeline.withArrays spec2 c (V8 m (O6 m) c) fun w => (dat2 (E8 m) c).arrAt w cfg2.N
theorem X9_arr (c : Dev nD) (w : Fin cfg2.W) :
    X9 m c (Proc.devRef .tc (Pipeline.arrRef spec2 w)) = (dat2 (E8 m) c).arrAt w cfg2.N :=
  Pipeline.withArrays_arr spec2 launch2.win.arr_inj c _ _ w
def O9 : Outs (F := F) := fun J r c => match J with
  | 4 => X4 m c (Proc.devRef .tc r)
  | 6 => X6 m c (Proc.devRef .tc r)
  | _ => X9 m c (Proc.devRef .tc r)

abbrev E10 : (c : Dev nD) → (b : Ref sig .tc) → Buf (Elt F) ((c : Thread nD τ).loc b) := fun c b => V10 m (O9 m) c b
def X11 (c : Dev nD) : Valuation τ sig (Elt F) :=
  Pipeline.withArrays spec3 c (V10 m (O9 m) c) fun w => (dat3 (E10 m) c).arrAt w cfg3.N
theorem X11_arr (c : Dev nD) (w : Fin cfg3.W) :
    X11 m c (Proc.devRef .tc (Pipeline.arrRef spec3 w)) = (dat3 (E10 m) c).arrAt w cfg3.N :=
  Pipeline.withArrays_arr spec3 launch3.win.arr_inj c _ _ w
def outs : Outs (F := F) := fun J r c => match J with
  | 4 => X4 m c (Proc.devRef .tc r)
  | 6 => X6 m c (Proc.devRef .tc r)
  | 9 => X9 m c (Proc.devRef .tc r)
  | _ => X11 m c (Proc.devRef .tc r)

theorem V5_outs (c : Dev nD) : V5 m (outs m) c = V5 m (O4 m) c := rfl
theorem V8_outs (c : Dev nD) : V8 m (outs m) c = V8 m (O6 m) c := rfl
theorem V10_outs (c : Dev nD) : V10 m (outs m) c = V10 m (O9 m) c := rfl

theorem V4_at_main_v20_0 (c : Dev nD) : V4 m (outs m) c main_v20_0 = X4 m c (Proc.devRef .tc main_v20_0) :=
  (Function.update_of_ne (StableHlo.devRef_ne_of_ne (by decide)) ..).trans <|
    (Function.update_of_ne (StableHlo.devRef_ne_of_ne (by decide)) ..).trans (Function.update_self ..)
theorem V4_at_main_v20_1 (c : Dev nD) : V4 m (outs m) c main_v20_1 = X4 m c (Proc.devRef .tc main_v20_1) :=
  (Function.update_of_ne (StableHlo.devRef_ne_of_ne (by decide)) ..).trans (Function.update_self ..)
theorem V4_at_main_v20_2 (c : Dev nD) : V4 m (outs m) c main_v20_2 = X4 m c (Proc.devRef .tc main_v20_2) :=
  Function.update_self ..
theorem V6_at_main_v29 (c : Dev nD) : V6 m (outs m) c main_v29 = X6 m c (Proc.devRef .tc main_v29) :=
  Function.update_self ..
theorem V9_at_main_v42_0 (c : Dev nD) : V9 m (outs m) c main_v42_0 = X9 m c (Proc.devRef .tc main_v42_0) :=
  (Function.update_of_ne (StableHlo.devRef_ne_of_ne (by decide)) ..).trans <|
    (Function.update_of_ne (StableHlo.devRef_ne_of_ne (by decide)) ..).trans (Function.update_self ..)
theorem V9_at_main_v42_1 (c : Dev nD) : V9 m (outs m) c main_v42_1 = X9 m c (Proc.devRef .tc main_v42_1) :=
  (Function.update_of_ne (StableHlo.devRef_ne_of_ne (by decide)) ..).trans (Function.update_self ..)
theorem V9_at_main_v42_2 (c : Dev nD) : V9 m (outs m) c main_v42_2 = X9 m c (Proc.devRef .tc main_v42_2) :=
  Function.update_self ..
theorem V11_at_main_v51 (c : Dev nD) : V11 m (outs m) c main_v51 = X11 m c (Proc.devRef .tc main_v51) :=
  Function.update_self ..

end Cert.Kernel.Hand

end
-- ==== Proof.K.Run.lean ====
import proofs.«422895_j12790412608056_1_alg».proof.Proof.K.RunCond
import proofs.«422895_j12790412608056_1_alg».proof.Proof.K.RunDefs
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

variable (m : (ℓ : Loc nD τ sig) → Buf (Elt F) ℓ)

def pdats : (p : Fin 4) → (c : Dev nD) → Dat τ (Elt F) Unit ℕ (UR sig nD τ) ℕ (cfgs p) c
  | ⟨0, _⟩ => dat0 (E3 m)
  | ⟨1, _⟩ => dat1 (E5 m)
  | ⟨2, _⟩ => dat2 (E8 m)
  | ⟨3, _⟩ => dat3 (E10 m)
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

/-- One call as a segment: the buffers hold `Vi` before it and `Vo` after it; `Vo` agrees with `Vi` off the list `l` and holds the call's results on it. -/
def seg (p : Fin 4) (lf : Pipeline.LaunchFacts (nD := nD) (τ := τ) cfgs p)
    (Vi Vo : Dev nD → Valuation τ sig (Elt F)) (l : List (Ref sig .tc))
    (hbd : ∀ c, BodyObligation (pdats m p c) (defs₀ (F := F)) Variants.none () Set.univ)
    (hΦi : ∀ c, Pipeline.ΦA (cfgs p).spec c ⊢ (pdats m p c).Φ 0)
    (hΦo : ∀ c, (pdats m p c).Φ (Fin.last (cfgs p).N) ⊢ Pipeline.ΦA (cfgs p).spec c)
    (hA : ∀ c w, (pdats m p c).A w = Vi c (Pipeline.arrRef (cfgs p).spec w))
    (h1 : ∀ c (b : Ref sig .tc), b ∉ l → Vo c b = Vi c b)
    (h2 : ∀ c, l.Forall fun b : Ref sig .tc => Vo c b
      = Pipeline.withArrays (cfgs p).spec c (Vi c) (fun w => (pdats m p c).arrAt w (cfgs p).N) (Proc.devRef .tc b))
    (h3 : ∀ w, Pipeline.arrRef (cfgs p).spec w ∉ l → ((cfgs p).win w).isOut = false)
    (hq : ∀ c w, (pdats m p c).q w = fullShare := by intros; rfl) (ho : ∀ c t, (pdats m p c).owed t = 0 := by intros; rfl)
    (hr : ∀ c, (pdats m p c).recorded 0 = Set.univ := by intros; rfl) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hbd c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c fun b => Vi c b
  hentry c := by
    have hsplit := Pipeline.arrays_of_unscopedBufs (p := p) (pcfgs (F := F)) adm (pdats m) lf.win lf.arr_whole c
      ((pdats m p c).share_full (hq c)) (fun b => Vi c b) (hA c)
    rw [Pipeline.unscopedBufs_held c (Vi c)] at hsplit
    unfold Pipeline.Dat.owesAt Pipeline.owesWithin Pipeline.Dat.bound Pipeline.prefHeld
    rw [Pipeline.ownSems0_none, ho c, hr c, Finset.univ_eq_empty, BI.bigSep_empty]
    iintro ⟨⟨Hub, Hp, %W, HO⟩, -, -⟩
    ihave H := hsplit $$ Hub
    icases H with ⟨Ha, Hrest⟩
    imodintro
    iframe Ha Hp Hrest
    isplitr; · iempintro
    iexists W; iframe HO
    ipureintro; exact fun _ _ => Or.inl trivial
  hin c := by
    refine (?_ : _ ⊢ Pipeline.ΦA (cfgs p).spec c).trans (hΦi c)
    unfold Pipeline.ΦA
    iintro ⟨Hp, -, Hr⟩
    iframe
  hout c := by
    rw [Pipeline.ownSems0_none]
    refine (hΦo c).trans ?_
    unfold Pipeline.ΦA
    iintro ⟨Hr, Hp⟩
    iframe; iempintro
  hexit c := by
    have hjoin := Pipeline.unscopedBufs_of_arrays (p := p) (pcfgs (F := F)) adm lf.win lf.arr_whole c (pdats m) ((pdats m p c).share_full (hq c))
      (fun b => Vi c b) (fun b => Vo c b) ((pdats m p c).arrAt · (cfgs p).N)
      (fun w => by
        by_cases hm : Pipeline.arrRef (cfgs p).spec w ∈ l
        · exact ((List.forall_iff_forall_mem.mp (h2 c) _ hm).trans (Pipeline.withArrays_arr _ lf.win.arr_inj c _ _ w)).symm
        · exact ((pdats m p c).arrAt_in w (h3 w hm) _).trans ((hA c w).trans (h1 c _ hm).symm))
      (fun b hb => by
        by_cases hm : b ∈ l
        · exact (List.forall_iff_forall_mem.mp (h2 c) b hm).trans
            (Pipeline.withArrays_of_ne _ c _ _ b fun w e => hb (Finset.mem_image.mpr ⟨w, Finset.mem_univ _, e⟩))
        · exact h1 c b hm)
    rw [Pipeline.unscopedBufs_held c (Vo c)] at hjoin
    unfold Pipeline.Dat.owesAt Pipeline.owesWithin
    rw [ho c]
    iintro ⟨Ha, ⟨%W, -, HO⟩, HY, Hrest⟩
    imodintro
    isplitl [Ha Hrest]
    · iapply hjoin; iframe
    isplitl [HY]; · iexact HY
    iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V11 m (outs m) c b) :=
  run_cond m emb₁ () Variants.none L lv (fun _ _ => rfl) ρ (outs m) (pdats m) 0 (fun _ => BI.emp)
    _
    (by
      rw [ownU_emb₁, BI.bigSep_emp_const]
      iintro Hu; imodintro; iframe; iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (seg m 0 launch0 (V3 m) (V4 m (outs m)) [main_v20_0, main_v20_1, main_v20_2]
      (body_obligation0 (E3 m)) (hin0 (E3 m)) (hout0 (E3 m))
      (A_eq0 (E3 m)) (V4_of m (outs m))
      (fun c => ⟨V4_at_main_v20_0 m c, V4_at_main_v20_1 m c, V4_at_main_v20_2 m c⟩) (by decide))
    (fun c => .rfl) (fun c => .rfl)
    (seg m 1 launch1 (V5 m (outs m)) (V6 m (outs m)) [main_v29]
      (body_obligation1 (E5 m)) (fun _ => .rfl) (fun _ => .rfl)
      (A_eq1 (E5 m)) (V6_of m (outs m)) (V6_at_main_v29 m) (by decide))
    (fun c => .rfl) (fun c => .rfl)
    (seg m 2 launch2 (V8 m (outs m)) (V9 m (outs m)) [main_v42_0, main_v42_1, main_v42_2]
      (body_obligation2 (E8 m)) (hin2 (E8 m)) (hout2 (E8 m))
      (A_eq2 (E8 m)) (V9_of m (outs m))
      (fun c => ⟨V9_at_main_v42_0 m c, V9_at_main_v42_1 m c, V9_at_main_v42_2 m c⟩) (by decide))
    (fun c => .rfl) (fun c => .rfl)
    (seg m 3 launch3 (V10 m (outs m)) (V11 m (outs m)) [main_v51]
      (body_obligation3 (E10 m)) (fun _ => .rfl) (fun _ => .rfl)
      (A_eq3 (E10 m)) (V11_of m (outs m)) (V11_at_main_v51 m) (by decide))
    (fun c => .rfl) (fun c => .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have g := fun (b : Ref sig .tc) hb => h c _ (mem_uc b hb)
    ⟨(g main_arg0 (by decide)).trans (V11_main_arg0 m (outs m) c), (g main_arg1 (by decide)).trans (V11_main_arg1 m (outs m) c),
     (g main_arg2 (by decide)).trans (V11_main_arg2 m (outs m) c), (g main_arg3 (by decide)).trans (V11_main_arg3 m (outs m) c),
     (g main_arg4 (by decide)).trans (V11_main_arg4 m (outs m) c), (g main_arg5 (by decide)).trans (V11_main_arg5 m (outs m) c),
     (g main_arg6 (by decide)).trans (V11_main_arg6 m (outs m) c), (g main_arg7 (by decide)).trans (V11_main_arg7 m (outs m) c),
     (g main_arg8 (by decide)).trans (V11_main_arg8 m (outs m) c), (g main_arg9 (by decide)).trans (V11_main_arg9 m (outs m) c),
     (g main_arg10 (by decide)).trans (V11_main_arg10 m (outs m) c), (g main_arg11 (by decide)).trans (V11_main_arg11 m (outs m) c)⟩) (run_all m ρ)

end Cert.Kernel.Hand

end
-- ==== Proof.KI.LinCommon.lean ====
import proofs.«422895_j12790412608056_1_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem off2_zero : (![0, 0] : Fin 2 → ℕ) = fun _ => 0 := by funext a; fin_cases a <;> rfl

-- A whole memref reads each contents of its buffer once, so owning it at `X` is its points-to at the contents that read `X`.
theorem owns_unread (c : Dev nD) {S : Shape} {e : EltTy} (m : Memref sig .tc .vmem S e) (h : m.IsWhole) (X : S.Idx → Elt F e) :
    (owns (c : Thread nD τ) m fullShare X : sProp 𝕄) = (m.view.loc (c : Thread nD τ) ↦[m.view.set]{fullShare} h.unread X) := by
  have h₂ := owns_intro (Val := Elt F) (Ix := Unit) (Name := ℕ) (U := UR sig nD τ) (Lvl := ℕ) (c : Thread nD τ) m fullShare (h.unread X)
  rw [h.read_unread] at h₂
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  exact BI.equiv_iff.mp ⟨h₁, h₂⟩

-- A store through the whole-shape rectangle, made last, leaves a whole buffer at the contents that read its payload.
theorem writes_unread {S : Shape} {e : EltTy} (m : Memref sig .tc .vmem S e) (h : m.IsWhole) (f : m.view.ty.Contents (Elt F))
    {off : Fin S.rank → ℕ} (hz : off = fun _ => 0) (inb : ∀ a, off a + S.size a ≤ S.size a) (w : S.Idx → Elt F e)
    (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.mem_cons_self, View.mem_set_unit_zero hz inb y⟩),
    View.canon_cons_unit_zero hz])

-- A load through the whole-shape rectangle of a whole buffer holding `X` reads `X`.
theorem readAt_whole {S : Shape} {e : EltTy} (m : Memref sig .tc .vmem S e) (h : m.IsWhole)
    {off : Fin S.rank → ℕ} (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

end Cert.KernelIdeal.Hand

end
-- ==== Proof.KI.Lin0Run.lean ====
import proofs.«422895_j12790412608056_1_alg».proof.Proof.Gen.KernelIdeal.Skeleton
import proofs.«422895_j12790412608056_1_alg».proof.Proof.Gen.KernelIdeal.Points
import proofs.«422895_j12790412608056_1_alg».proof.Proof.KI.LinCommon

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condA0 (i : grid0.Coords) : Prop :=
  (Scalar.cmpi .ne (Scalar.extui (Scalar.cmpi .eq (BitVec.ofNat 32 (i 0).val) 0#32)) 0#32) = 1#1
abbrev condC0 (i : grid0.Coords) : Prop := k0_cond2 i = 1#1

theorem hcondA0 : ∀ t : Fin cfg0.N, condA0 (grid0.coords t) ↔ t.val = 0 :=
  (by decide +kernel : ∀ t : Fin grid0.N, condA0 (grid0.coords t) ↔ t.val = 0)
theorem hcondC0 : ∀ t : Fin cfg0.N, condC0 (grid0.coords t) ↔ t.val = 49 :=
  (by decide +kernel : ∀ t : Fin grid0.N, condC0 (grid0.coords t) ↔ t.val = 49)

theorem live0 : ∀ (w : Fin cfg0.W) (t : Fin cfg0.N), w.val < 6 ∨ condC0 (grid0.coords t) → cfg0.idle w (grid0.coords t) = false := by
  decide +kernel
theorem idle0 : ∀ (w : Fin cfg0.W) (t : Fin cfg0.N), 6 ≤ w.val → ¬condC0 (grid0.coords t) →
    cfg0.idle w (grid0.coords t) = true ∧ (cfg0.win w).flush t = false := by decide +kernel

set_option maxHeartbeats 500000 in
-- One grid point: y is stored, each accumulator (zero at the first point) gains the block's column sum, and at the last point both are copied out.
theorem run0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hAC : condA0 i → ¬condC0 i)
    (x0 x1 d5 : Vec F S2000x64 .f32) (x2 x3 : Vec F S64x64 .f32) (x4 d6 d7 s q : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d5 ∗ owns (c : Thread nD τ) arg7 fullShare d6 ∗ owns (c : Thread nD τ) arg8 fullShare d7 ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg7 fullShare (if condC0 i then (k0_pay5 x0 x1 x2 x3 x4 (if condA0 i then k0_pay2 (F := F) else s)) else d6)
            ∗ owns (c : Thread nD τ) arg8 fullShare (if condC0 i then (k0_pay1 (if condA0 i then k0_pay3 (F := F) else q) (k0_pay6 x0 x1 x2 x3 x4)) else d7)
            ∗ owns (c : Thread nD τ) arg9 fullShare (k0_pay5 x0 x1 x2 x3 x4 (if condA0 i then k0_pay2 (F := F) else s)) ∗ owns (c : Thread nD τ) arg10 fullShare (k0_pay1 (if condA0 i then k0_pay3 (F := F) else q) (k0_pay6 x0 x1 x2 x3 x4))) -∗ K ⟨⟩))
      ⊢ wp frame (wpE (defs₀ (F := F)) Variants.none c none) E (cc0__linear_combine_kernel i arg1 harg1 arg2 harg2 arg3 harg3 arg4 harg4 arg5 harg5 arg6 harg6 arg7 harg7 arg8 harg8 arg9 harg9 arg10 harg10) K := by
  simp only [cc0__linear_combine_kernel_eq_skeleton]; unfold cc0__linear_combine_kernel_skel
  simp only [k0_part1_eq_skeleton, owns_unread c _ harg1, owns_unread c _ harg2, owns_unread c _ harg3, owns_unread c _ harg4,
    owns_unread c _ harg5, owns_unread c _ harg6, owns_unread c _ harg7, owns_unread c _ harg8, owns_unread c _ harg9,
    owns_unread c _ harg10]
  by_cases hA : condA0 i <;> by_cases hC : condC0 i <;> first
    | exact absurd hC (hAC hA)
    | (first | rw [if_pos hC, if_pos hC] | rw [if_neg hC, if_neg hC]
       first | rw [if_pos hA, if_pos hA] | rw [if_neg hA, if_neg hA]
       iintro ⟨H1, H2, H3, H4, H5, H6, H7, H8, H9, H10, Hk⟩
       sl_exec (disch := first | exact hA | exact hC)
       sl_step
       sl_unfold_words
       simp only [writes_unread _ harg6 _ off2_zero, writes_unread _ harg7 _ off2_zero, writes_unread _ harg8 _ off2_zero,
         writes_unread _ harg9 _ off2_zero, writes_unread _ harg10 _ off2_zero, readAt_whole _ harg1 off2_zero,
         readAt_whole _ harg2 off2_zero, readAt_whole _ harg3 off2_zero, readAt_whole _ harg4 off2_zero,
         readAt_whole _ harg5 off2_zero, readAt_whole _ harg9 off2_zero, readAt_whole _ harg10 off2_zero,
         View.readCov_unit_zero (S := S1x64) _ off2_zero]
       iapply Hk; iframe)

end Cert.KernelIdeal.Hand

end
-- ==== Proof.KI.Lin0.lean ====
import proofs.«422895_j12790412608056_1_alg».proof.Proof.KI.Lin0Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def yblk0 (c : Dev nD) (t : Fin cfg0.N) : Vec F S2000x64 .f32 :=
  k0_pay4 (iblk0 V c 0 t) (iblk0 V c 1 t) (iblk0 V c 2 t) (iblk0 V c 3 t) (iblk0 V c 4 t)

-- The two carried accumulators after point `n`: the column sums of y and of y² over the blocks so far.
def accAt0 (c : Dev nD) : (n : ℕ) → n < cfg0.N → Vec F S1x64 .f32 × Vec F S1x64 .f32
  | 0, h => (k0_pay5 (iblk0 V c 0 ⟨0, h⟩) (iblk0 V c 1 ⟨0, h⟩) (iblk0 V c 2 ⟨0, h⟩) (iblk0 V c 3 ⟨0, h⟩) (iblk0 V c 4 ⟨0, h⟩) (k0_pay2 (F := F)),
             k0_pay1 (k0_pay3 (F := F)) (k0_pay6 (iblk0 V c 0 ⟨0, h⟩) (iblk0 V c 1 ⟨0, h⟩) (iblk0 V c 2 ⟨0, h⟩) (iblk0 V c 3 ⟨0, h⟩) (iblk0 V c 4 ⟨0, h⟩)))
  | n + 1, h => (k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt0 c n (Nat.lt_of_succ_lt h)).1,
             k0_pay1 (accAt0 c n (Nat.lt_of_succ_lt h)).2 (k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)))

abbrev sc0_0 : Memref sig .tc .vmem S1x64 .f32 := Memref.whole cc0_scratch0
abbrev sc0_1 : Memref sig .tc .vmem S1x64 .f32 := Memref.whole cc0_scratch1

-- The call's resources, with the two accumulators owned at `p`.
def accs0 (c : Dev nD) (p : Vec F S1x64 .f32 × Vec F S1x64 .f32) : sProp 𝕄 :=
  iprop(iprop(iprop(owns (c : Thread nD τ) sc0_0 fullShare p.1 ∗ owns (c : Thread nD τ) sc0_1 fullShare p.2)
      ∗ Pipeline.scopedRestBut (Ix := Unit) (Name := ℕ) (U := UR sig nD τ) (Lvl := ℕ) (Val := Elt F) spec0 c [cc0_scratch0, cc0_scratch1]) ∗ (∃ r, prngReg c r))

-- The invariant before position `n`: after a point, the accumulators hold what that point left.
def Phi0 (c : Dev nD) : (n : ℕ) → n ≤ cfg0.N → sProp 𝕄
  | 0, _ => Pipeline.ΦA spec0 c
  | n + 1, hn => accs0 c (accAt0 V c n hn)

theorem Phi0_zero (c : Dev nD) (n : ℕ) (h : n ≤ cfg0.N) (hz : n = 0) : Phi0 V c n h = Pipeline.ΦA spec0 c := by
  subst hz; rfl

theorem Phi0_pos (c : Dev nD) (n : ℕ) (h : n ≤ cfg0.N) (hz : n ≠ 0) : Phi0 V c n h = accs0 c (accAt0 V c (n - 1) (by omega)) := by
  cases n with
  | zero => exact absurd rfl hz
  | succ n => rfl

theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [sc0_0, sc0_1, owns_whole]; try rfl

-- Forgetting the accumulators' contents gives the call's resources back.
theorem accs0_out (c : Dev nD) (p : Vec F S1x64 .f32 × Vec F S1x64 .f32) : accs0 c p ⊢ Pipeline.ΦA spec0 c := by
  rw [PhiA0_eq]; unfold accs0
  iintro ⟨⟨⟨HS0, HS1⟩, Hr⟩, Hg⟩
  iframe Hr Hg
  isplitl [HS0]; · iexists _; iexact HS0
  iexists _; iexact HS1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => yblk0 V c t
    | ⟨6, _⟩ => (accAt0 V c t.val t.isLt).1
    | ⟨7, _⟩ => (accAt0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_5 (c : Dev nD) (t : Fin cfg0.N) : (dat0 V c).after 5 t = yblk0 V c t := by dsimp only [dat0]
theorem after0_6 (c : Dev nD) (t : Fin cfg0.N) : (dat0 V c).after 6 t = (accAt0 V c t.val t.isLt).1 := by dsimp only [dat0]
theorem after0_7 (c : Dev nD) (t : Fin cfg0.N) : (dat0 V c).after 7 t = (accAt0 V c t.val t.isLt).2 := by dsimp only [dat0]

theorem hin0 (c : Dev nD) : Pipeline.ΦA spec0 c ⊢ (dat0 (F := F) V c).Φ 0 := Entails.refl _

theorem hout0 (c : Dev nD) : (dat0 (F := F) V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 50 := N_0; omega)]
  exact accs0_out c _

-- Before a point the invariant holds the accumulators at some contents: after the first point, what the point before left.
theorem Phi0_open (c : Dev nD) (t : Fin cfg0.N) :
    (dat0 V c).Φ t.castSucc ⊢ iprop(∃ p, ⌜t.val ≠ 0 → accAt0 V c (t.val - 1) (by omega) = p⌝ ∗ accs0 c p) := by
  rw [show (dat0 V c).Φ t.castSucc = Phi0 V c t.val (Nat.le_of_lt t.isLt) from by dsimp only [dat0]; simp only [Fin.coe_castSucc]]
  by_cases hz : t.val = 0
  · rw [Phi0_zero V c _ _ hz, PhiA0_eq]
    iintro ⟨⟨⟨⟨%s, HS0⟩, ⟨%q, HS1⟩⟩, Hr⟩, Hg⟩
    iexists (s, q); isplitr; · ipureintro; exact fun h => absurd hz h
    unfold accs0; dsimp only; iframe
  · rw [Phi0_pos V c _ _ hz]
    iintro H; iexists _; isplitr; · ipureintro; exact fun _ => rfl
    iexact H

-- One point's step of the accumulators, from the contents `p` the point found them at.
theorem accAt0_step (c : Dev nD) (t : Fin cfg0.N) (p : Vec F S1x64 .f32 × Vec F S1x64 .f32)
    (hp : t.val ≠ 0 → accAt0 V c (t.val - 1) (by omega) = p) :
    accAt0 V c t.val t.isLt = (k0_pay5 (iblk0 V c 0 t) (iblk0 V c 1 t) (iblk0 V c 2 t) (iblk0 V c 3 t) (iblk0 V c 4 t) (if condA0 (grid0.coords t) then k0_pay2 (F := F) else p.1),
      k0_pay1 (if condA0 (grid0.coords t) then k0_pay3 (F := F) else p.2) (k0_pay6 (iblk0 V c 0 t) (iblk0 V c 1 t) (iblk0 V c 2 t) (iblk0 V c 3 t) (iblk0 V c 4 t))) := by
  by_cases hz : t.val = 0
  · rw [if_pos ((hcondA0 t).mpr hz), if_pos ((hcondA0 t).mpr hz)]
    obtain ⟨n, hn⟩ := t; obtain rfl : n = 0 := hz; rfl
  · rw [if_neg (mt (hcondA0 t).mp hz), if_neg (mt (hcondA0 t).mp hz), ← hp hz]
    obtain ⟨n, hn⟩ := t
    cases n with
    | zero => exact absurd rfl hz
    | succ n => rfl

-- At every point the body reads each input's block of the array.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
    exact ((dat0 V c).before_in_eq_fetched _ rfl (fun _ => rfl) (fun _ _ _ => rfl)
      (fun t => by dsimp only [dat0]; unfold Dat.blockOf iblk0; try rfl) t d).trans
      (by unfold Dat.fetched Dat.blockOf iblk0; rw [A_eq0]; try rfl)

theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = iblk0 V c 3 t ∧ (dat0 V c).after 4 t = iblk0 V c 4 t := by
  dsimp only [dat0]; exact ⟨rfl, rfl, rfl, rfl, rfl⟩

theorem leaves0 (c : Dev nD) (w : Fin cfg0.W) (t : Fin cfg0.N) (h : w.val < 6 ∨ condC0 (grid0.coords t)) :
    (dat0 V c).leavesExact w t = owns (c : Thread nD τ) ((cfg0.win w).stage (cfg0.slots t w)) fullShare ((dat0 V c).after w t) := by
  unfold Dat.leavesExact; rw [live0 w t h]

theorem sound_body0 (c : Dev nD) (t : Fin cfg0.N) :
    iprop((dat0 V c).Φ t.castSucc ∗ (dat0 V c).owesAt () t.castSucc
      ∗ bigSep Finset.univ fun w => iprop(∃ d, owns (c : Thread nD τ) ((cfg0.win w).stage (cfg0.slots t w)) fullShare ((dat0 V c).before w t d)))
    ⊢ wp frame (wpE (defs₀ (F := F)) Variants.none c none) Set.univ (bodyAt0 t) (fun _ =>
      iprop((dat0 V c).Φ t.succ ∗ (dat0 V c).owesAt () t.succ ∗ bigSep Finset.univ fun w => (dat0 V c).leavesExact w t)) := by
  rw [bigSep_W0, bigSep_W0]
  obtain ⟨b0, b1, b2, b3, b4⟩ := before0 V c t
  obtain ⟨a0, a1, a2, a3, a4⟩ := after0 V c t
  simp only [b0, b1, b2, b3, b4]
  rw [show (dat0 V c).owesAt () t.succ = (dat0 V c).owesAt () t.castSucc from rfl,
    show (dat0 V c).Φ t.succ = accs0 c (accAt0 V c t.val t.isLt) from rfl,
    leaves0 V c 0 t (.inl (by decide)), leaves0 V c 1 t (.inl (by decide)), leaves0 V c 2 t (.inl (by decide)),
    leaves0 V c 3 t (.inl (by decide)), leaves0 V c 4 t (.inl (by decide)), leaves0 V c 5 t (.inl (by decide)), a0, a1, a2, a3, a4, after0_5]
  unfold yblk0
  have hAC : condA0 (grid0.coords t) → ¬condC0 (grid0.coords t) := fun a b => by
    have := (hcondA0 t).mp a; have := (hcondC0 t).mp b; omega
  refine (sep_mono_left (Phi0_open V c t)).trans ?_
  unfold accs0
  iintro ⟨⟨%p, %hp, ⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0 c (grid0.coords t) (st0_0 t) _ (st0_1 t) _ (st0_2 t) _ (st0_3 t) _
    (st0_4 t) _ (st0_5 t) _ (st0_6 t) _ (st0_7 t) _
    sc0_0 _ sc0_1 _ hAC (iblk0 V c 0 t) (iblk0 V c 1 t) ((dat0 V c).before 5 t d5)
    (iblk0 V c 2 t) (iblk0 V c 3 t) (iblk0 V c 4 t) ((dat0 V c).before 6 t d6) ((dat0 V c).before 7 t d7) p.1 p.2 Set.univ _)
  iframe H0 H1 H2 H3 H4 H5 H6 H7 HS0 HS1
  iintro ⟨H0, H1, H2, H3, H4, H5, H6, H7, HS0, HS1⟩
  by_cases hC : condC0 (grid0.coords t)
  · rw [if_pos hC, if_pos hC, leaves0 V c 6 t (.inr hC), leaves0 V c 7 t (.inr hC), after0_6, after0_7, accAt0_step V c t p hp]
    dsimp only; iframe
  · rw [if_neg hC, if_neg hC, Dat.leavesExact_idle (dat0 V c) 6 t (idle0 6 t (by decide) hC).1 (idle0 6 t (by decide) hC).2,
      Dat.leavesExact_idle (dat0 V c) 7 t (idle0 7 t (by decide) hC).1 (idle0 7 t (by decide) hC).2, accAt0_step V c t p hp]
    dsimp only; iframe
    isplitl [H6]; · iexists _; iexact H6
    iexists _; iexact H7

theorem body_obligation0 (c : Dev nD) : BodyObligation (dat0 (F := F) V c) (defs₀ (F := F)) Variants.none () Set.univ :=
  sound_body0 V c

end Region

end Cert.KernelIdeal.Hand

end
-- ==== Proof.KI.BnCommon.lean ====
import proofs.«422895_j12790412608056_1_alg».proof.Proof.Gen.KernelIdeal.Launch
import proofs.«422895_j12790412608056_1_alg».proof.Proof.Gen.KernelIdeal.Skeleton
import proofs.«422895_j12790412608056_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic
open Cert.KernelIdeal Cert.KernelIdeal.Gen

variable {F : FTy → Type} [FloatOps F]

theorem zero_offsets : (![0, 0] : Fin 2 → Nat) = fun _ => 0 := funext fun a => by fin_cases a <;> rfl

theorem ld_tab (X : Vec F S2000x64 .f32) :
    View.ld X (Rect.unit (s := S2000x64) ![0, 0] S2000x64.size inb_S2000x64_S2000x64_0_0) = X :=
  View.ld_unit_zero zero_offsets _ X

theorem ld_row (X : Vec F S1x64 .f32) :
    View.ld X (Rect.unit (s := S1x64) ![0, 0] S1x64.size inb_S1x64_S1x64_0_0) = X :=
  View.ld_unit_zero zero_offsets _ X

end Cert.KernelIdeal.Hand

end
-- ==== Proof.KI.Bn1.lean ====
import proofs.«422895_j12790412608056_1_alg».proof.Proof.KI.BnCommon

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit (s := S2000x64) ![0, 0] S2000x64.size inb_S2000x64_S2000x64_0_0

def out1_5 (x0 : Vec F S2000x64 .f32) (x1 x2 x3 x4 : Vec F S1x64 .f32) : Vec F S2000x64 .f32 :=
  View.canon [⟨r1_0, k1_pay1 x0 x1 x2 x3 x4⟩]

set_option maxHeartbeats 400000 in
-- Five loads, a load nothing reads, and one store of the whole block: the inputs stay, the output holds the payload.
theorem sound_kernel1 (c : Dev nD) (E : Set ℕ) (i : grid1.Coords)
    (a1 a6 : Memref sig .tc .vmem S2000x64 .f32) (a2 a3 a4 a5 : Memref sig .tc .vmem S1x64 .f32)
    (h1 : a1.IsWhole) (h2 : a2.IsWhole) (h3 : a3.IsWhole) (h4 : a4.IsWhole) (h5 : a5.IsWhole) (h6 : a6.IsWhole)
    (x0 : Vec F S2000x64 .f32) (x1 x2 x3 x4 : Vec F S1x64 .f32) (K : PUnit → sProp 𝕄) :
    iprop(owns c.tc a1 fullShare x0 ∗ owns c.tc a2 fullShare x1
        ∗ owns c.tc a3 fullShare x2 ∗ owns c.tc a4 fullShare x3
        ∗ owns c.tc a5 fullShare x4 ∗ (∃ d, owns c.tc a6 fullShare d)
        ∗ (iprop(owns c.tc a1 fullShare x0 ∗ owns c.tc a2 fullShare x1
            ∗ owns c.tc a3 fullShare x2 ∗ owns c.tc a4 fullShare x3
            ∗ owns c.tc a5 fullShare x4
            ∗ owns c.tc a6 fullShare (out1_5 x0 x1 x2 x3 x4)) -∗ K ⟨⟩))
      ⊢ wp frame (wpE (defs₀ (F := F)) Variants.none c none) E
          (cc1__bn_leaky_kernel i a1 h1 a2 h2 a3 h3 a4 h4 a5 h5 a6 h6) K := by
  simp only [cc1__bn_leaky_kernel_eq_skeleton]; unfold cc1__bn_leaky_kernel_skel owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ fun y => ⟨_, List.mem_singleton_self _, View.mem_set_unit_zero zero_offsets inb_S2000x64_S2000x64_0_0 y⟩]
  simp only [out1_5, View.readAt_eq_ld]
  rw [ld_tab, ld_row, ld_row, ld_row, ld_row]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

-- The body reads each input's block at its point, and leaves it as it was.
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ (∀ d, (dat1 V c).before 4 t d = iblk1 V c 4 t) := by
  refine ⟨?_, ?_, ?_, ?_, ?_⟩ <;> intro d <;>
    exact ((dat1 V c).before_in_eq_fetched _ rfl (fun _ => rfl) (fun _ _ _ => rfl)
      (fun t => by dsimp only [dat1]; unfold Dat.blockOf iblk1; try rfl) t d).trans
      (by unfold Dat.fetched Dat.blockOf iblk1; dsimp only [dat1]; try rfl)

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp only [before1 V c t]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply sound_kernel1
  iframe H0 H1 H2 H3 H4
  isplitl [H5]; · iexists _; iexact H5
  iintro ⟨H0, H1, H2, H3, H4, H5⟩
  iframe

end Region

end Cert.KernelIdeal.Hand

end
-- ==== Proof.KI.Lin2Run.lean ====
import proofs.«422895_j12790412608056_1_alg».proof.Proof.Gen.KernelIdeal.Skeleton
import proofs.«422895_j12790412608056_1_alg».proof.Proof.Gen.KernelIdeal.Points
import proofs.«422895_j12790412608056_1_alg».proof.Proof.KI.LinCommon

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condA2 (i : grid2.Coords) : Prop :=
  (Scalar.cmpi .ne (Scalar.extui (Scalar.cmpi .eq (BitVec.ofNat 32 (i 0).val) 0#32)) 0#32) = 1#1
abbrev condC2 (i : grid2.Coords) : Prop := k2_cond2 i = 1#1

theorem hcondA2 : ∀ t : Fin cfg2.N, condA2 (grid2.coords t) ↔ t.val = 0 :=
  (by decide +kernel : ∀ t : Fin grid2.N, condA2 (grid2.coords t) ↔ t.val = 0)
theorem hcondC2 : ∀ t : Fin cfg2.N, condC2 (grid2.coords t) ↔ t.val = 49 :=
  (by decide +kernel : ∀ t : Fin grid2.N, condC2 (grid2.coords t) ↔ t.val = 49)

theorem live2 : ∀ (w : Fin cfg2.W) (t : Fin cfg2.N), w.val < 6 ∨ condC2 (grid2.coords t) → cfg2.idle w (grid2.coords t) = false := by
  decide +kernel
theorem idle2 : ∀ (w : Fin cfg2.W) (t : Fin cfg2.N), 6 ≤ w.val → ¬condC2 (grid2.coords t) →
    cfg2.idle w (grid2.coords t) = true ∧ (cfg2.win w).flush t = false := by decide +kernel

set_option maxHeartbeats 500000 in
-- One grid point: y is stored, each accumulator (zero at the first point) gains the block's column sum, and at the last point both are copied out.
theorem run2 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hAC : condA2 i → ¬condC2 i)
    (x0 x1 d5 : Vec F S2000x64 .f32) (x2 x3 : Vec F S64x64 .f32) (x4 d6 d7 s q : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d5 ∗ owns (c : Thread nD τ) arg7 fullShare d6 ∗ owns (c : Thread nD τ) arg8 fullShare d7 ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay4 x0 x1 x2 x3 x4)
            ∗ owns (c : Thread nD τ) arg7 fullShare (if condC2 i then (k2_pay5 x0 x1 x2 x3 x4 (if condA2 i then k2_pay2 (F := F) else s)) else d6)
            ∗ owns (c : Thread nD τ) arg8 fullShare (if condC2 i then (k2_pay1 (if condA2 i then k2_pay3 (F := F) else q) (k2_pay6 x0 x1 x2 x3 x4)) else d7)
            ∗ owns (c : Thread nD τ) arg9 fullShare (k2_pay5 x0 x1 x2 x3 x4 (if condA2 i then k2_pay2 (F := F) else s)) ∗ owns (c : Thread nD τ) arg10 fullShare (k2_pay1 (if condA2 i then k2_pay3 (F := F) else q) (k2_pay6 x0 x1 x2 x3 x4))) -∗ K ⟨⟩))
      ⊢ wp frame (wpE (defs₀ (F := F)) Variants.none c none) E (cc2__linear_combine_kernel i arg1 harg1 arg2 harg2 arg3 harg3 arg4 harg4 arg5 harg5 arg6 harg6 arg7 harg7 arg8 harg8 arg9 harg9 arg10 harg10) K := by
  simp only [cc2__linear_combine_kernel_eq_skeleton]; unfold cc2__linear_combine_kernel_skel
  simp only [k2_part1_eq_skeleton, owns_unread c _ harg1, owns_unread c _ harg2, owns_unread c _ harg3, owns_unread c _ harg4,
    owns_unread c _ harg5, owns_unread c _ harg6, owns_unread c _ harg7, owns_unread c _ harg8, owns_unread c _ harg9,
    owns_unread c _ harg10]
  by_cases hA : condA2 i <;> by_cases hC : condC2 i <;> first
    | exact absurd hC (hAC hA)
    | (first | rw [if_pos hC, if_pos hC] | rw [if_neg hC, if_neg hC]
       first | rw [if_pos hA, if_pos hA] | rw [if_neg hA, if_neg hA]
       iintro ⟨H1, H2, H3, H4, H5, H6, H7, H8, H9, H10, Hk⟩
       sl_exec (disch := first | exact hA | exact hC)
       sl_step
       sl_unfold_words
       simp only [writes_unread _ harg6 _ off2_zero, writes_unread _ harg7 _ off2_zero, writes_unread _ harg8 _ off2_zero,
         writes_unread _ harg9 _ off2_zero, writes_unread _ harg10 _ off2_zero, readAt_whole _ harg1 off2_zero,
         readAt_whole _ harg2 off2_zero, readAt_whole _ harg3 off2_zero, readAt_whole _ harg4 off2_zero,
         readAt_whole _ harg5 off2_zero, readAt_whole _ harg9 off2_zero, readAt_whole _ harg10 off2_zero,
         View.readCov_unit_zero (S := S1x64) _ off2_zero]
       iapply Hk; iframe)

end Cert.KernelIdeal.Hand

end
-- ==== Proof.KI.Lin2.lean ====
import proofs.«422895_j12790412608056_1_alg».proof.Proof.KI.Lin2Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def yblk2 (c : Dev nD) (t : Fin cfg2.N) : Vec F S2000x64 .f32 :=
  k2_pay4 (iblk2 V c 0 t) (iblk2 V c 1 t) (iblk2 V c 2 t) (iblk2 V c 3 t) (iblk2 V c 4 t)

-- The two carried accumulators after point `n`: the column sums of y and of y² over the blocks so far.
def accAt2 (c : Dev nD) : (n : ℕ) → n < cfg2.N → Vec F S1x64 .f32 × Vec F S1x64 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) (k2_pay2 (F := F)),
             k2_pay1 (k2_pay3 (F := F)) (k2_pay6 (iblk2 V c 0 ⟨0, h⟩) (iblk2 V c 1 ⟨0, h⟩) (iblk2 V c 2 ⟨0, h⟩) (iblk2 V c 3 ⟨0, h⟩) (iblk2 V c 4 ⟨0, h⟩)))
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accAt2 c n (Nat.lt_of_succ_lt h)).1,
             k2_pay1 (accAt2 c n (Nat.lt_of_succ_lt h)).2 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)))

abbrev sc2_0 : Memref sig .tc .vmem S1x64 .f32 := Memref.whole cc2_scratch0
abbrev sc2_1 : Memref sig .tc .vmem S1x64 .f32 := Memref.whole cc2_scratch1

-- The call's resources, with the two accumulators owned at `p`.
def accs2 (c : Dev nD) (p : Vec F S1x64 .f32 × Vec F S1x64 .f32) : sProp 𝕄 :=
  iprop(iprop(iprop(owns (c : Thread nD τ) sc2_0 fullShare p.1 ∗ owns (c : Thread nD τ) sc2_1 fullShare p.2)
      ∗ Pipeline.scopedRestBut (Ix := Unit) (Name := ℕ) (U := UR sig nD τ) (Lvl := ℕ) (Val := Elt F) spec2 c [cc2_scratch0, cc2_scratch1]) ∗ (∃ r, prngReg c r))

-- The invariant before position `n`: after a point, the accumulators hold what that point left.
def Phi2 (c : Dev nD) : (n : ℕ) → n ≤ cfg2.N → sProp 𝕄
  | 0, _ => Pipeline.ΦA spec2 c
  | n + 1, hn => accs2 c (accAt2 V c n hn)

theorem Phi2_zero (c : Dev nD) (n : ℕ) (h : n ≤ cfg2.N) (hz : n = 0) : Phi2 V c n h = Pipeline.ΦA spec2 c := by
  subst hz; rfl

theorem Phi2_pos (c : Dev nD) (n : ℕ) (h : n ≤ cfg2.N) (hz : n ≠ 0) : Phi2 V c n h = accs2 c (accAt2 V c (n - 1) (by omega)) := by
  cases n with
  | zero => exact absurd rfl hz
  | succ n => rfl

theorem PhiA2_eq (c : Dev nD) :
    (Pipeline.ΦA spec2 c : sProp 𝕄)
      = iprop(iprop(iprop((∃ d, owns (c : Thread nD τ) sc2_0 fullShare d) ∗ (∃ d, owns (c : Thread nD τ) sc2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [sc2_0, sc2_1, owns_whole]; try rfl

-- Forgetting the accumulators' contents gives the call's resources back.
theorem accs2_out (c : Dev nD) (p : Vec F S1x64 .f32 × Vec F S1x64 .f32) : accs2 c p ⊢ Pipeline.ΦA spec2 c := by
  rw [PhiA2_eq]; unfold accs2
  iintro ⟨⟨⟨HS0, HS1⟩, Hr⟩, Hg⟩
  iframe Hr Hg
  isplitl [HS0]; · iexists _; iexact HS0
  iexists _; iexact HS1

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => yblk2 V c t
    | ⟨6, _⟩ => (accAt2 V c t.val t.isLt).1
    | ⟨7, _⟩ => (accAt2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_5 (c : Dev nD) (t : Fin cfg2.N) : (dat2 V c).after 5 t = yblk2 V c t := by dsimp only [dat2]
theorem after2_6 (c : Dev nD) (t : Fin cfg2.N) : (dat2 V c).after 6 t = (accAt2 V c t.val t.isLt).1 := by dsimp only [dat2]
theorem after2_7 (c : Dev nD) (t : Fin cfg2.N) : (dat2 V c).after 7 t = (accAt2 V c t.val t.isLt).2 := by dsimp only [dat2]

theorem hin2 (c : Dev nD) : Pipeline.ΦA spec2 c ⊢ (dat2 (F := F) V c).Φ 0 := Entails.refl _

theorem hout2 (c : Dev nD) : (dat2 (F := F) V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 50 := N_2; omega)]
  exact accs2_out c _

-- Before a point the invariant holds the accumulators at some contents: after the first point, what the point before left.
theorem Phi2_open (c : Dev nD) (t : Fin cfg2.N) :
    (dat2 V c).Φ t.castSucc ⊢ iprop(∃ p, ⌜t.val ≠ 0 → accAt2 V c (t.val - 1) (by omega) = p⌝ ∗ accs2 c p) := by
  rw [show (dat2 V c).Φ t.castSucc = Phi2 V c t.val (Nat.le_of_lt t.isLt) from by dsimp only [dat2]; simp only [Fin.coe_castSucc]]
  by_cases hz : t.val = 0
  · rw [Phi2_zero V c _ _ hz, PhiA2_eq]
    iintro ⟨⟨⟨⟨%s, HS0⟩, ⟨%q, HS1⟩⟩, Hr⟩, Hg⟩
    iexists (s, q); isplitr; · ipureintro; exact fun h => absurd hz h
    unfold accs2; dsimp only; iframe
  · rw [Phi2_pos V c _ _ hz]
    iintro H; iexists _; isplitr; · ipureintro; exact fun _ => rfl
    iexact H

-- One point's step of the accumulators, from the contents `p` the point found them at.
theorem accAt2_step (c : Dev nD) (t : Fin cfg2.N) (p : Vec F S1x64 .f32 × Vec F S1x64 .f32)
    (hp : t.val ≠ 0 → accAt2 V c (t.val - 1) (by omega) = p) :
    accAt2 V c t.val t.isLt = (k2_pay5 (iblk2 V c 0 t) (iblk2 V c 1 t) (iblk2 V c 2 t) (iblk2 V c 3 t) (iblk2 V c 4 t) (if condA2 (grid2.coords t) then k2_pay2 (F := F) else p.1),
      k2_pay1 (if condA2 (grid2.coords t) then k2_pay3 (F := F) else p.2) (k2_pay6 (iblk2 V c 0 t) (iblk2 V c 1 t) (iblk2 V c 2 t) (iblk2 V c 3 t) (iblk2 V c 4 t))) := by
  by_cases hz : t.val = 0
  · rw [if_pos ((hcondA2 t).mpr hz), if_pos ((hcondA2 t).mpr hz)]
    obtain ⟨n, hn⟩ := t; obtain rfl : n = 0 := hz; rfl
  · rw [if_neg (mt (hcondA2 t).mp hz), if_neg (mt (hcondA2 t).mp hz), ← hp hz]
    obtain ⟨n, hn⟩ := t
    cases n with
    | zero => exact absurd rfl hz
    | succ n => rfl

-- At every point the body reads each input's block of the array.
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> intro d <;>
    exact ((dat2 V c).before_in_eq_fetched _ rfl (fun _ => rfl) (fun _ _ _ => rfl)
      (fun t => by dsimp only [dat2]; unfold Dat.blockOf iblk2; try rfl) t d).trans
      (by unfold Dat.fetched Dat.blockOf iblk2; rw [A_eq2]; try rfl)

theorem after2 (c : Dev nD) (t : Fin cfg2.N) : (dat2 V c).after 0 t = iblk2 V c 0 t ∧ (dat2 V c).after 1 t = iblk2 V c 1 t
    ∧ (dat2 V c).after 2 t = iblk2 V c 2 t ∧ (dat2 V c).after 3 t = iblk2 V c 3 t ∧ (dat2 V c).after 4 t = iblk2 V c 4 t := by
  dsimp only [dat2]; exact ⟨rfl, rfl, rfl, rfl, rfl⟩

theorem leaves2 (c : Dev nD) (w : Fin cfg2.W) (t : Fin cfg2.N) (h : w.val < 6 ∨ condC2 (grid2.coords t)) :
    (dat2 V c).leavesExact w t = owns (c : Thread nD τ) ((cfg2.win w).stage (cfg2.slots t w)) fullShare ((dat2 V c).after w t) := by
  unfold Dat.leavesExact; rw [live2 w t h]

theorem sound_body2 (c : Dev nD) (t : Fin cfg2.N) :
    iprop((dat2 V c).Φ t.castSucc ∗ (dat2 V c).owesAt () t.castSucc
      ∗ bigSep Finset.univ fun w => iprop(∃ d, owns (c : Thread nD τ) ((cfg2.win w).stage (cfg2.slots t w)) fullShare ((dat2 V c).before w t d)))
    ⊢ wp frame (wpE (defs₀ (F := F)) Variants.none c none) Set.univ (bodyAt2 t) (fun _ =>
      iprop((dat2 V c).Φ t.succ ∗ (dat2 V c).owesAt () t.succ ∗ bigSep Finset.univ fun w => (dat2 V c).leavesExact w t)) := by
  rw [bigSep_W2, bigSep_W2]
  obtain ⟨b0, b1, b2, b3, b4⟩ := before2 V c t
  obtain ⟨a0, a1, a2, a3, a4⟩ := after2 V c t
  simp only [b0, b1, b2, b3, b4]
  rw [show (dat2 V c).owesAt () t.succ = (dat2 V c).owesAt () t.castSucc from rfl,
    show (dat2 V c).Φ t.succ = accs2 c (accAt2 V c t.val t.isLt) from rfl,
    leaves2 V c 0 t (.inl (by decide)), leaves2 V c 1 t (.inl (by decide)), leaves2 V c 2 t (.inl (by decide)),
    leaves2 V c 3 t (.inl (by decide)), leaves2 V c 4 t (.inl (by decide)), leaves2 V c 5 t (.inl (by decide)), a0, a1, a2, a3, a4, after2_5]
  unfold yblk2
  have hAC : condA2 (grid2.coords t) → ¬condC2 (grid2.coords t) := fun a b => by
    have := (hcondA2 t).mp a; have := (hcondC2 t).mp b; omega
  refine (sep_mono_left (Phi2_open V c t)).trans ?_
  unfold accs2
  iintro ⟨⟨%p, %hp, ⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run2 c (grid2.coords t) (st2_0 t) _ (st2_1 t) _ (st2_2 t) _ (st2_3 t) _
    (st2_4 t) _ (st2_5 t) _ (st2_6 t) _ (st2_7 t) _
    sc2_0 _ sc2_1 _ hAC (iblk2 V c 0 t) (iblk2 V c 1 t) ((dat2 V c).before 5 t d5)
    (iblk2 V c 2 t) (iblk2 V c 3 t) (iblk2 V c 4 t) ((dat2 V c).before 6 t d6) ((dat2 V c).before 7 t d7) p.1 p.2 Set.univ _)
  iframe H0 H1 H2 H3 H4 H5 H6 H7 HS0 HS1
  iintro ⟨H0, H1, H2, H3, H4, H5, H6, H7, HS0, HS1⟩
  by_cases hC : condC2 (grid2.coords t)
  · rw [if_pos hC, if_pos hC, leaves2 V c 6 t (.inr hC), leaves2 V c 7 t (.inr hC), after2_6, after2_7, accAt2_step V c t p hp]
    dsimp only; iframe
  · rw [if_neg hC, if_neg hC, Dat.leavesExact_idle (dat2 V c) 6 t (idle2 6 t (by decide) hC).1 (idle2 6 t (by decide) hC).2,
      Dat.leavesExact_idle (dat2 V c) 7 t (idle2 7 t (by decide) hC).1 (idle2 7 t (by decide) hC).2, accAt2_step V c t p hp]
    dsimp only; iframe
    isplitl [H6]; · iexists _; iexact H6
    iexists _; iexact H7

theorem body_obligation2 (c : Dev nD) : BodyObligation (dat2 (F := F) V c) (defs₀ (F := F)) Variants.none () Set.univ :=
  sound_body2 V c

end Region

end Cert.KernelIdeal.Hand

end
-- ==== Proof.KI.Bn3.lean ====
import proofs.«422895_j12790412608056_1_alg».proof.Proof.KI.BnCommon

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0

def out3_5 (x0 : Vec F S2000x64 .f32) (x1 x2 x3 x4 : Vec F S1x64 .f32) : Vec F S2000x64 .f32 :=
  View.canon [⟨r3_0, k3_pay1 x0 x1 x2 x3 x4⟩]

set_option maxHeartbeats 400000 in
-- Five loads, a load nothing reads, and one store of the whole block: the inputs stay, the output holds the payload.
theorem sound_kernel3 (c : Dev nD) (E : Set ℕ) (i : grid3.Coords)
    (a1 a6 : Memref sig .tc .vmem S2000x64 .f32) (a2 a3 a4 a5 : Memref sig .tc .vmem S1x64 .f32)
    (h1 : a1.IsWhole) (h2 : a2.IsWhole) (h3 : a3.IsWhole) (h4 : a4.IsWhole) (h5 : a5.IsWhole) (h6 : a6.IsWhole)
    (x0 : Vec F S2000x64 .f32) (x1 x2 x3 x4 : Vec F S1x64 .f32) (K : PUnit → sProp 𝕄) :
    iprop(owns c.tc a1 fullShare x0 ∗ owns c.tc a2 fullShare x1
        ∗ owns c.tc a3 fullShare x2 ∗ owns c.tc a4 fullShare x3
        ∗ owns c.tc a5 fullShare x4 ∗ (∃ d, owns c.tc a6 fullShare d)
        ∗ (iprop(owns c.tc a1 fullShare x0 ∗ owns c.tc a2 fullShare x1
            ∗ owns c.tc a3 fullShare x2 ∗ owns c.tc a4 fullShare x3
            ∗ owns c.tc a5 fullShare x4
            ∗ owns c.tc a6 fullShare (out3_5 x0 x1 x2 x3 x4)) -∗ K ⟨⟩))
      ⊢ wp frame (wpE (defs₀ (F := F)) Variants.none c none) E
          (cc3__bn_leaky_kernel i a1 h1 a2 h2 a3 h3 a4 h4 a5 h5 a6 h6) K := by
  simp only [cc3__bn_leaky_kernel_eq_skeleton]; unfold cc3__bn_leaky_kernel_skel owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ fun y => ⟨_, List.mem_singleton_self _, View.mem_set_unit_zero zero_offsets inb_S2000x64_S2000x64_0_0 y⟩]
  simp only [out3_5, View.readAt_eq_ld]
  rw [ld_tab, ld_row, ld_row, ld_row, ld_row]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

-- The body reads each input's block at its point, and leaves it as it was.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) := by
  refine ⟨?_, ?_, ?_, ?_, ?_⟩ <;> intro d <;>
    exact ((dat3 V c).before_in_eq_fetched _ rfl (fun _ => rfl) (fun _ _ _ => rfl)
      (fun t => by dsimp only [dat3]; unfold Dat.blockOf iblk3; try rfl) t d).trans
      (by unfold Dat.fetched Dat.blockOf iblk3; dsimp only [dat3]; try rfl)

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp only [before3 V c t]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply sound_kernel3
  iframe H0 H1 H2 H3 H4
  isplitl [H5]; · iexists _; iexact H5
  iintro ⟨H0, H1, H2, H3, H4, H5⟩
  iframe

end Region

end Cert.KernelIdeal.Hand

end
-- ==== Proof.KI.RunDefs.lean ====
import proofs.«422895_j12790412608056_1_alg».proof.Proof.KI.Lin0
import proofs.«422895_j12790412608056_1_alg».proof.Proof.KI.Bn1
import proofs.«422895_j12790412608056_1_alg».proof.Proof.KI.Lin2
import proofs.«422895_j12790412608056_1_alg».proof.Proof.KI.Bn3
import proofs.«422895_j12790412608056_1_alg».proof.Proof.Gen.KernelIdeal.Regions
import Idealize.ShloMosaic.Lib.Pipeline.FrameSuffix

noncomputable section

namespace Cert.KernelIdeal.Hand

open Idealize.ShloMosaic Idealize.ShloMosaic.TcCoe
open Cert.KernelIdeal Cert.KernelIdeal.Gen

variable {F : FTy → Type} [FloatOps F]

variable (m : (ℓ : Loc nD τ sig) → Buf (Elt F) ℓ)

abbrev E3 : (c : Dev nD) → (b : Ref sig .tc) → Buf (Elt F) ((c : Thread nD τ).loc b) := fun c b => V3 m c b
def X4 (c : Dev nD) : Valuation τ sig (Elt F) :=
  Pipeline.withArrays spec0 c (V3 m c) fun w => (dat0 (E3 m) c).arrAt w cfg0.N
theorem X4_arr (c : Dev nD) (w : Fin cfg0.W) :
    X4 m c (Proc.devRef .tc (Pipeline.arrRef spec0 w)) = (dat0 (E3 m) c).arrAt w cfg0.N :=
  Pipeline.withArrays_arr spec0 launch0.win.arr_inj c _ _ w
def O4 : Outs (F := F) := fun _ r c => X4 m c (Proc.devRef .tc r)

abbrev E5 : (c : Dev nD) → (b : Ref sig .tc) → Buf (Elt F) ((c : Thread nD τ).loc b) := fun c b => V5 m (O4 m) c b
def X6 (c : Dev nD) : Valuation τ sig (Elt F) :=
  Pipeline.withArrays spec1 c (V5 m (O4 m) c) fun w => (dat1 (E5 m) c).arrAt w cfg1.N
theorem X6_arr (c : Dev nD) (w : Fin cfg1.W) :
    X6 m c (Proc.devRef .tc (Pipeline.arrRef spec1 w)) = (dat1 (E5 m) c).arrAt w cfg1.N :=
  Pipeline.withArrays_arr spec1 launch1.win.arr_inj c _ _ w
def O6 : Outs (F := F) := fun J r c => match J with
  | 4 => X4 m c (Proc.devRef .tc r)
  | _ => X6 m c (Proc.devRef .tc r)

abbrev E8 : (c : Dev nD) → (b : Ref sig .tc) → Buf (Elt F) ((c : Thread nD τ).loc b) := fun c b => V8 m (O6 m) c b
def X9 (c : Dev nD) : Valuation τ sig (Elt F) :=
  Pipeline.withArrays spec2 c (V8 m (O6 m) c) fun w => (dat2 (E8 m) c).arrAt w cfg2.N
theorem X9_arr (c : Dev nD) (w : Fin cfg2.W) :
    X9 m c (Proc.devRef .tc (Pipeline.arrRef spec2 w)) = (dat2 (E8 m) c).arrAt w cfg2.N :=
  Pipeline.withArrays_arr spec2 launch2.win.arr_inj c _ _ w
def O9 : Outs (F := F) := fun J r c => match J with
  | 4 => X4 m c (Proc.devRef .tc r)
  | 6 => X6 m c (Proc.devRef .tc r)
  | _ => X9 m c (Proc.devRef .tc r)

abbrev E10 : (c : Dev nD) → (b : Ref sig .tc) → Buf (Elt F) ((c : Thread nD τ).loc b) := fun c b => V10 m (O9 m) c b
def X11 (c : Dev nD) : Valuation τ sig (Elt F) :=
  Pipeline.withArrays spec3 c (V10 m (O9 m) c) fun w => (dat3 (E10 m) c).arrAt w cfg3.N
theorem X11_arr (c : Dev nD) (w : Fin cfg3.W) :
    X11 m c (Proc.devRef .tc (Pipeline.arrRef spec3 w)) = (dat3 (E10 m) c).arrAt w cfg3.N :=
  Pipeline.withArrays_arr spec3 launch3.win.arr_inj c _ _ w
def outs : Outs (F := F) := fun J r c => match J with
  | 4 => X4 m c (Proc.devRef .tc r)
  | 6 => X6 m c (Proc.devRef .tc r)
  | 9 => X9 m c (Proc.devRef .tc r)
  | _ => X11 m c (Proc.devRef .tc r)

theorem V5_outs (c : Dev nD) : V5 m (outs m) c = V5 m (O4 m) c := rfl
theorem V8_outs (c : Dev nD) : V8 m (outs m) c = V8 m (O6 m) c := rfl
theorem V10_outs (c : Dev nD) : V10 m (outs m) c = V10 m (O9 m) c := rfl

theorem V4_at_main_v20_0 (c : Dev nD) : V4 m (outs m) c main_v20_0 = X4 m c (Proc.devRef .tc main_v20_0) :=
  (Function.update_of_ne (StableHlo.devRef_ne_of_ne (by decide)) ..).trans <|
    (Function.update_of_ne (StableHlo.devRef_ne_of_ne (by decide)) ..).trans (Function.update_self ..)
theorem V4_at_main_v20_1 (c : Dev nD) : V4 m (outs m) c main_v20_1 = X4 m c (Proc.devRef .tc main_v20_1) :=
  (Function.update_of_ne (StableHlo.devRef_ne_of_ne (by decide)) ..).trans (Function.update_self ..)
theorem V4_at_main_v20_2 (c : Dev nD) : V4 m (outs m) c main_v20_2 = X4 m c (Proc.devRef .tc main_v20_2) :=
  Function.update_self ..
theorem V6_at_main_v29 (c : Dev nD) : V6 m (outs m) c main_v29 = X6 m c (Proc.devRef .tc main_v29) :=
  Function.update_self ..
theorem V9_at_main_v42_0 (c : Dev nD) : V9 m (outs m) c main_v42_0 = X9 m c (Proc.devRef .tc main_v42_0) :=
  (Function.update_of_ne (StableHlo.devRef_ne_of_ne (by decide)) ..).trans <|
    (Function.update_of_ne (StableHlo.devRef_ne_of_ne (by decide)) ..).trans (Function.update_self ..)
theorem V9_at_main_v42_1 (c : Dev nD) : V9 m (outs m) c main_v42_1 = X9 m c (Proc.devRef .tc main_v42_1) :=
  (Function.update_of_ne (StableHlo.devRef_ne_of_ne (by decide)) ..).trans (Function.update_self ..)
theorem V9_at_main_v42_2 (c : Dev nD) : V9 m (outs m) c main_v42_2 = X9 m c (Proc.devRef .tc main_v42_2) :=
  Function.update_self ..
theorem V11_at_main_v51 (c : Dev nD) : V11 m (outs m) c main_v51 = X11 m c (Proc.devRef .tc main_v51) :=
  Function.update_self ..

end Cert.KernelIdeal.Hand

end
-- ==== Proof.KI.Run.lean ====
import proofs.«422895_j12790412608056_1_alg».proof.Proof.KI.RunCond
import proofs.«422895_j12790412608056_1_alg».proof.Proof.KI.RunDefs
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

variable (m : (ℓ : Loc nD τ sig) → Buf (Elt F) ℓ)

def pdats : (p : Fin 4) → (c : Dev nD) → Dat τ (Elt F) Unit ℕ (UR sig nD τ) ℕ (cfgs p) c
  | ⟨0, _⟩ => dat0 (E3 m)
  | ⟨1, _⟩ => dat1 (E5 m)
  | ⟨2, _⟩ => dat2 (E8 m)
  | ⟨3, _⟩ => dat3 (E10 m)
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

/-- One call as a segment: the buffers hold `Vi` before it and `Vo` after it; `Vo` agrees with `Vi` off the list `l` and holds the call's results on it. -/
def seg (p : Fin 4) (lf : Pipeline.LaunchFacts (nD := nD) (τ := τ) cfgs p)
    (Vi Vo : Dev nD → Valuation τ sig (Elt F)) (l : List (Ref sig .tc))
    (hbd : ∀ c, BodyObligation (pdats m p c) (defs₀ (F := F)) Variants.none () Set.univ)
    (hΦi : ∀ c, Pipeline.ΦA (cfgs p).spec c ⊢ (pdats m p c).Φ 0)
    (hΦo : ∀ c, (pdats m p c).Φ (Fin.last (cfgs p).N) ⊢ Pipeline.ΦA (cfgs p).spec c)
    (hA : ∀ c w, (pdats m p c).A w = Vi c (Pipeline.arrRef (cfgs p).spec w))
    (h1 : ∀ c (b : Ref sig .tc), b ∉ l → Vo c b = Vi c b)
    (h2 : ∀ c, l.Forall fun b : Ref sig .tc => Vo c b
      = Pipeline.withArrays (cfgs p).spec c (Vi c) (fun w => (pdats m p c).arrAt w (cfgs p).N) (Proc.devRef .tc b))
    (h3 : ∀ w, Pipeline.arrRef (cfgs p).spec w ∉ l → ((cfgs p).win w).isOut = false)
    (hq : ∀ c w, (pdats m p c).q w = fullShare := by intros; rfl) (ho : ∀ c t, (pdats m p c).owed t = 0 := by intros; rfl)
    (hr : ∀ c, (pdats m p c).recorded 0 = Set.univ := by intros; rfl) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hbd c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c fun b => Vi c b
  hentry c := by
    have hsplit := Pipeline.arrays_of_unscopedBufs (p := p) (pcfgs (F := F)) adm (pdats m) lf.win lf.arr_whole c
      ((pdats m p c).share_full (hq c)) (fun b => Vi c b) (hA c)
    rw [Pipeline.unscopedBufs_held c (Vi c)] at hsplit
    unfold Pipeline.Dat.owesAt Pipeline.owesWithin Pipeline.Dat.bound Pipeline.prefHeld
    rw [Pipeline.ownSems0_none, ho c, hr c, Finset.univ_eq_empty, BI.bigSep_empty]
    iintro ⟨⟨Hub, Hp, %W, HO⟩, -, -⟩
    ihave H := hsplit $$ Hub
    icases H with ⟨Ha, Hrest⟩
    imodintro
    iframe Ha Hp Hrest
    isplitr; · iempintro
    iexists W; iframe HO
    ipureintro; exact fun _ _ => Or.inl trivial
  hin c := by
    refine (?_ : _ ⊢ Pipeline.ΦA (cfgs p).spec c).trans (hΦi c)
    unfold Pipeline.ΦA
    iintro ⟨Hp, -, Hr⟩
    iframe
  hout c := by
    rw [Pipeline.ownSems0_none]
    refine (hΦo c).trans ?_
    unfold Pipeline.ΦA
    iintro ⟨Hr, Hp⟩
    iframe; iempintro
  hexit c := by
    have hjoin := Pipeline.unscopedBufs_of_arrays (p := p) (pcfgs (F := F)) adm lf.win lf.arr_whole c (pdats m) ((pdats m p c).share_full (hq c))
      (fun b => Vi c b) (fun b => Vo c b) ((pdats m p c).arrAt · (cfgs p).N)
      (fun w => by
        by_cases hm : Pipeline.arrRef (cfgs p).spec w ∈ l
        · exact ((List.forall_iff_forall_mem.mp (h2 c) _ hm).trans (Pipeline.withArrays_arr _ lf.win.arr_inj c _ _ w)).symm
        · exact ((pdats m p c).arrAt_in w (h3 w hm) _).trans ((hA c w).trans (h1 c _ hm).symm))
      (fun b hb => by
        by_cases hm : b ∈ l
        · exact (List.forall_iff_forall_mem.mp (h2 c) b hm).trans
            (Pipeline.withArrays_of_ne _ c _ _ b fun w e => hb (Finset.mem_image.mpr ⟨w, Finset.mem_univ _, e⟩))
        · exact h1 c b hm)
    rw [Pipeline.unscopedBufs_held c (Vo c)] at hjoin
    unfold Pipeline.Dat.owesAt Pipeline.owesWithin
    rw [ho c]
    iintro ⟨Ha, ⟨%W, -, HO⟩, HY, Hrest⟩
    imodintro
    isplitl [Ha Hrest]
    · iapply hjoin; iframe
    isplitl [HY]; · iexact HY
    iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V11 m (outs m) c b) :=
  run_cond m emb₁ () Variants.none L lv (fun _ _ => rfl) ρ (outs m) (pdats m) 0 (fun _ => BI.emp)
    _
    (by
      rw [ownU_emb₁, BI.bigSep_emp_const]
      iintro Hu; imodintro; iframe; iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (seg m 0 launch0 (V3 m) (V4 m (outs m)) [main_v20_0, main_v20_1, main_v20_2]
      (body_obligation0 (E3 m)) (hin0 (E3 m)) (hout0 (E3 m))
      (A_eq0 (E3 m)) (V4_of m (outs m))
      (fun c => ⟨V4_at_main_v20_0 m c, V4_at_main_v20_1 m c, V4_at_main_v20_2 m c⟩) (by decide))
    (fun c => .rfl) (fun c => .rfl)
    (seg m 1 launch1 (V5 m (outs m)) (V6 m (outs m)) [main_v29]
      (body_obligation1 (E5 m)) (fun _ => .rfl) (fun _ => .rfl)
      (A_eq1 (E5 m)) (V6_of m (outs m)) (V6_at_main_v29 m) (by decide))
    (fun c => .rfl) (fun c => .rfl)
    (seg m 2 launch2 (V8 m (outs m)) (V9 m (outs m)) [main_v42_0, main_v42_1, main_v42_2]
      (body_obligation2 (E8 m)) (hin2 (E8 m)) (hout2 (E8 m))
      (A_eq2 (E8 m)) (V9_of m (outs m))
      (fun c => ⟨V9_at_main_v42_0 m c, V9_at_main_v42_1 m c, V9_at_main_v42_2 m c⟩) (by decide))
    (fun c => .rfl) (fun c => .rfl)
    (seg m 3 launch3 (V10 m (outs m)) (V11 m (outs m)) [main_v51]
      (body_obligation3 (E10 m)) (fun _ => .rfl) (fun _ => .rfl)
      (A_eq3 (E10 m)) (V11_of m (outs m)) (V11_at_main_v51 m) (by decide))
    (fun c => .rfl) (fun c => .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have g := fun (b : Ref sig .tc) hb => h c _ (mem_uc b hb)
    ⟨(g main_arg0 (by decide)).trans (V11_main_arg0 m (outs m) c), (g main_arg1 (by decide)).trans (V11_main_arg1 m (outs m) c),
     (g main_arg2 (by decide)).trans (V11_main_arg2 m (outs m) c), (g main_arg3 (by decide)).trans (V11_main_arg3 m (outs m) c),
     (g main_arg4 (by decide)).trans (V11_main_arg4 m (outs m) c), (g main_arg5 (by decide)).trans (V11_main_arg5 m (outs m) c),
     (g main_arg6 (by decide)).trans (V11_main_arg6 m (outs m) c), (g main_arg7 (by decide)).trans (V11_main_arg7 m (outs m) c),
     (g main_arg8 (by decide)).trans (V11_main_arg8 m (outs m) c), (g main_arg9 (by decide)).trans (V11_main_arg9 m (outs m) c),
     (g main_arg10 (by decide)).trans (V11_main_arg10 m (outs m) c), (g main_arg11 (by decide)).trans (V11_main_arg11 m (outs m) c)⟩) (run_all m ρ)

end Cert.KernelIdeal.Hand

end
-- ==== Proof.Spec.lean ====
import Idealize.ShloMosaic.PureOps.Ideal
import Idealize.ShloMosaic.PureOps.Ideal.Laws

noncomputable section

namespace Cert.Spec

open Idealize.ShloMosaic

abbrev M (a b : Nat) := Fin a → Fin b → EReal

def Real2 {a b : Nat} (f : M a b) : Prop := ∀ r j, f r j ≠ ⊤ ∧ f r j ≠ ⊥

def Real1 {a : Nat} (f : Fin a → EReal) : Prop := ∀ j, f j ≠ ⊤ ∧ f j ≠ ⊥

def nRows : EReal := Ideal.ofBits .f32 0x47C35000#32

def eps : EReal := Ideal.ofBits .f32 0x3727C5AC#32

def slope : EReal := Ideal.ofBits .f32 0x3C23D70A#32

def lin (h mm : M 100000 64) (ws wn : M 64 64) (b : Fin 64 → EReal) : M 100000 64 :=
  fun r j => (∑ k : Fin 64, h r k * ws k j) + (∑ k : Fin 64, mm r k * wn k j) + b j

def colSum (y : M 100000 64) : Fin 64 → EReal := fun j => ∑ r : Fin 100000, y r j

def colSumSq (y : M 100000 64) : Fin 64 → EReal := fun j => ∑ r : Fin 100000, y r j * y r j

def meanK (y : M 100000 64) : Fin 64 → EReal := fun j => Ideal.div (colSum y j) nRows

def varK (y : M 100000 64) : Fin 64 → EReal :=
  fun j => Ideal.div (colSumSq y j) nRows - meanK y j * meanK y j

def bnK (y : M 100000 64) (mean var g be : Fin 64 → EReal) : M 100000 64 := fun r j =>
  if 0 < (y r j - mean j) * Ideal.rsqrt (var j + eps) * g j + be j
  then (y r j - mean j) * Ideal.rsqrt (var j + eps) * g j + be j
  else ((y r j - mean j) * Ideal.rsqrt (var j + eps) * g j + be j) * slope

def layerK (h mm : M 100000 64) (ws wn : M 64 64) (b g be : Fin 64 → EReal) : M 100000 64 :=
  bnK (lin h mm ws wn b) (meanK (lin h mm ws wn b)) (varK (lin h mm ws wn b)) g be

def meanR (y : M 100000 64) : Fin 64 → EReal := fun j => Ideal.div (0 + ∑ r : Fin 100000, y r j) nRows

def varR (y : M 100000 64) : Fin 64 → EReal :=
  fun j => Ideal.div (0 + ∑ r : Fin 100000, (y r j - meanR y j) * (y r j - meanR y j)) nRows

def bnR (y : M 100000 64) (mean var g be : Fin 64 → EReal) : M 100000 64 := fun r j =>
  if 0 ≤ (y r j - mean j) * Ideal.rsqrt (var j + eps) * g j + be j
  then (y r j - mean j) * Ideal.rsqrt (var j + eps) * g j + be j
  else slope * ((y r j - mean j) * Ideal.rsqrt (var j + eps) * g j + be j)

def layerR (h mm : M 100000 64) (ws wn : M 64 64) (b g be : Fin 64 → EReal) : M 100000 64 :=
  bnR (lin h mm ws wn b) (meanR (lin h mm ws wn b)) (varR (lin h mm ws wn b)) g be

theorem nRows_eq : nRows = ((100000 : ℝ) : EReal) := by
  simp [nRows, Ideal.ofBits, Ideal.ieee]
  rw [← EReal.coe_mul, EReal.coe_eq_coe_iff]
  norm_num

theorem eps_eq : ∃ e : ℝ, 0 < e ∧ eps = ((e : ℝ) : EReal) := by
  refine ⟨10995116 * (2 ^ 40)⁻¹, by positivity, ?_⟩
  simp [eps, Ideal.ofBits, Ideal.ieee]

theorem slope_eq : ∃ s : ℝ, slope = ((s : ℝ) : EReal) := by
  refine ⟨10737418 * (2 ^ 30)⁻¹, ?_⟩
  simp [slope, Ideal.ofBits, Ideal.ieee]

theorem exists_real2 {a b : Nat} {f : M a b} (hf : Real2 f) :
    ∃ f' : Fin a → Fin b → ℝ, f = fun r j => ((f' r j : ℝ) : EReal) :=
  ⟨fun r j => (f r j).toReal, by
    funext r j; exact (EReal.coe_toReal (hf r j).1 (hf r j).2).symm⟩

theorem exists_real1 {a : Nat} {f : Fin a → EReal} (hf : Real1 f) :
    ∃ f' : Fin a → ℝ, f = fun j => ((f' j : ℝ) : EReal) :=
  ⟨fun j => (f j).toReal, by
    funext j; exact (EReal.coe_toReal (hf j).1 (hf j).2).symm⟩

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem lin_coe (h mm : Fin 100000 → Fin 64 → ℝ) (ws wn : Fin 64 → Fin 64 → ℝ) (b : Fin 64 → ℝ) :
    lin (fun r k => ((h r k : ℝ) : EReal)) (fun r k => ((mm r k : ℝ) : EReal))
        (fun k j => ((ws k j : ℝ) : EReal)) (fun k j => ((wn k j : ℝ) : EReal))
        (fun j => ((b j : ℝ) : EReal))
      = fun r j => (((∑ k, h r k * ws k j) + (∑ k, mm r k * wn k j) + b j : ℝ) : EReal) := by
  funext r j
  simp only [lin, ← EReal.coe_mul, coe_sum, ← EReal.coe_add]

def mu (y : Fin 100000 → Fin 64 → ℝ) (j : Fin 64) : ℝ := (∑ r, y r j) * (1 / 100000)

def va (y : Fin 100000 → Fin 64 → ℝ) (j : Fin 64) : ℝ :=
  (∑ r, (y r j - mu y j) * (y r j - mu y j)) * (1 / 100000)

theorem div_nRows (x : ℝ) : Ideal.div (x : EReal) nRows = ((x * (1 / 100000) : ℝ) : EReal) := by
  rw [nRows_eq, Ideal.div_coe (by norm_num), ← EReal.coe_mul]

theorem var_identity {n : ℕ} (f : Fin n → ℝ) (N : ℝ) (hN : (n : ℝ) = N) (h0 : N ≠ 0) :
    (∑ r, f r * f r) * (1 / N) - (∑ r, f r) * (1 / N) * ((∑ r, f r) * (1 / N))
      = (∑ r, (f r - (∑ r, f r) * (1 / N)) * (f r - (∑ r, f r) * (1 / N))) * (1 / N) := by
  generalize hμ : (∑ r, f r) * (1 / N) = μ
  have hS : ∑ r, f r = μ * N := by rw [← hμ]; field_simp
  have hexp : ∑ r, (f r - μ) * (f r - μ) = ∑ r, f r * f r - 2 * μ * ∑ r, f r + N * (μ * μ) := by
    have h1 : ∀ r, (f r - μ) * (f r - μ) = f r * f r - 2 * μ * f r + μ * μ := fun r => by ring
    simp only [h1, Finset.sum_add_distrib, Finset.sum_sub_distrib, ← Finset.mul_sum,
      Finset.sum_const, Finset.card_univ, Fintype.card_fin, nsmul_eq_mul, hN]
    ring
  rw [hexp, hS]
  field_simp
  ring

theorem va_nonneg (y : Fin 100000 → Fin 64 → ℝ) (j : Fin 64) : 0 ≤ va y j :=
  mul_nonneg (Finset.sum_nonneg fun _ _ => mul_self_nonneg _) (by norm_num)

theorem meanK_coe (y : Fin 100000 → Fin 64 → ℝ) (j : Fin 64) :
    meanK (fun r j => ((y r j : ℝ) : EReal)) j = ((mu y j : ℝ) : EReal) := by
  simp only [meanK, colSum, coe_sum, div_nRows, mu]

theorem meanR_coe (y : Fin 100000 → Fin 64 → ℝ) (j : Fin 64) :
    meanR (fun r j => ((y r j : ℝ) : EReal)) j = ((mu y j : ℝ) : EReal) := by
  simp only [meanR, zero_add, coe_sum, div_nRows, mu]

theorem varR_coe (y : Fin 100000 → Fin 64 → ℝ) (j : Fin 64) :
    varR (fun r j => ((y r j : ℝ) : EReal)) j = ((va y j : ℝ) : EReal) := by
  simp only [varR, meanR_coe, zero_add, ← EReal.coe_sub, ← EReal.coe_mul, coe_sum, div_nRows, va]

theorem varK_coe (y : Fin 100000 → Fin 64 → ℝ) (j : Fin 64) :
    varK (fun r j => ((y r j : ℝ) : EReal)) j = ((va y j : ℝ) : EReal) := by
  simp only [varK, colSumSq, meanK_coe, ← EReal.coe_mul, coe_sum, div_nRows, ← EReal.coe_sub]
  rw [EReal.coe_eq_coe_iff]
  exact var_identity (fun r => y r j) 100000 (by norm_num) (by norm_num)

theorem rect_eq (n s : EReal) :
    (if 0 < n then n else n * s) = (if 0 ≤ n then n else s * n) := by
  rcases lt_trichotomy 0 n with h | h | h
  · rw [if_pos h, if_pos h.le]
  · subst h; simp
  · rw [if_neg (not_lt.mpr h.le), if_neg (not_le.mpr h), mul_comm]

theorem bnK_eq_bnR (y : M 100000 64) (m v g be : Fin 64 → EReal) :
    bnK y m v g be = bnR y m v g be := by
  funext r j
  simp only [bnK, bnR]
  exact rect_eq _ _

theorem bnR_apply_real (y : M 100000 64) (m v g be : Fin 64 → EReal) (r : Fin 100000) (j : Fin 64)
    (n : ℝ) (hn : (y r j - m j) * Ideal.rsqrt (v j + eps) * g j + be j = ((n : ℝ) : EReal)) :
    bnR y m v g be r j ≠ ⊤ ∧ bnR y m v g be r j ≠ ⊥ := by
  obtain ⟨s, hS⟩ := slope_eq
  simp only [bnR]
  rw [hn, hS]
  split_ifs
  · exact ⟨EReal.coe_ne_top _, EReal.coe_ne_bot _⟩
  · rw [← EReal.coe_mul]; exact ⟨EReal.coe_ne_top _, EReal.coe_ne_bot _⟩

theorem rsqrt_va (y : Fin 100000 → Fin 64 → ℝ) (j : Fin 64) :
    ∃ t : ℝ, Ideal.rsqrt (((va y j : ℝ) : EReal) + eps) = ((t : ℝ) : EReal) := by
  obtain ⟨e, he, hE⟩ := eps_eq
  have hpos : 0 < va y j + e := add_pos_of_nonneg_of_pos (va_nonneg y j) he
  refine ⟨(Real.sqrt (va y j + e))⁻¹, ?_⟩
  rw [hE, ← EReal.coe_add, Ideal.rsqrt_coe, if_neg (not_lt.mpr hpos.le), if_neg hpos.ne']

theorem bnR_real (y : Fin 100000 → Fin 64 → ℝ) (g be : Fin 64 → ℝ) :
    Real2 (bnR (fun r j => ((y r j : ℝ) : EReal)) (meanR (fun r j => ((y r j : ℝ) : EReal)))
      (varR (fun r j => ((y r j : ℝ) : EReal))) (fun j => ((g j : ℝ) : EReal))
      (fun j => ((be j : ℝ) : EReal))) := by
  intro r j
  obtain ⟨t, ht⟩ := rsqrt_va y j
  refine bnR_apply_real _ _ _ _ _ r j ((y r j - mu y j) * t * g j + be j) ?_
  simp only [meanR_coe, varR_coe, ht, ← EReal.coe_sub, ← EReal.coe_mul, ← EReal.coe_add]

theorem layer_eq (h mm : M 100000 64) (ws wn : M 64 64) (b g be : Fin 64 → EReal)
    (hh : Real2 h) (hmm : Real2 mm) (hws : Real2 ws) (hwn : Real2 wn)
    (hb : Real1 b) (hg : Real1 g) (hbe : Real1 be) :
    layerK h mm ws wn b g be = layerR h mm ws wn b g be := by
  obtain ⟨h', rfl⟩ := exists_real2 hh
  obtain ⟨mm', rfl⟩ := exists_real2 hmm
  obtain ⟨ws', rfl⟩ := exists_real2 hws
  obtain ⟨wn', rfl⟩ := exists_real2 hwn
  obtain ⟨b', rfl⟩ := exists_real1 hb
  simp only [layerK, layerR, lin_coe]
  have hm : ∀ y : Fin 100000 → Fin 64 → ℝ,
      meanK (fun r j => ((y r j : ℝ) : EReal)) = meanR (fun r j => ((y r j : ℝ) : EReal)) :=
    fun y => funext fun j => by rw [meanK_coe, meanR_coe]
  have hv : ∀ y : Fin 100000 → Fin 64 → ℝ,
      varK (fun r j => ((y r j : ℝ) : EReal)) = varR (fun r j => ((y r j : ℝ) : EReal)) :=
    fun y => funext fun j => by rw [varK_coe, varR_coe]
  rw [hm, hv, bnK_eq_bnR]

theorem layer_real (h mm : M 100000 64) (ws wn : M 64 64) (b g be : Fin 64 → EReal)
    (hh : Real2 h) (hmm : Real2 mm) (hws : Real2 ws) (hwn : Real2 wn)
    (hb : Real1 b) (hg : Real1 g) (hbe : Real1 be) :
    Real2 (layerR h mm ws wn b g be) := by
  obtain ⟨h', rfl⟩ := exists_real2 hh
  obtain ⟨mm', rfl⟩ := exists_real2 hmm
  obtain ⟨ws', rfl⟩ := exists_real2 hws
  obtain ⟨wn', rfl⟩ := exists_real2 hwn
  obtain ⟨b', rfl⟩ := exists_real1 hb
  obtain ⟨g', rfl⟩ := exists_real1 hg
  obtain ⟨be', rfl⟩ := exists_real1 hbe
  simp only [layerR, lin_coe]
  exact bnR_real _ g' be'

end Cert.Spec

end
-- ==== Proof.Agg.lean ====
import Idealize.ShloMosaic.PureOps
import Idealize.ShloMosaic.PureOps.Ideal
import Idealize.ShloMosaic.Lib.ValueIdx
import proofs.«422895_j12790412608056_1_alg».proof.Proof.Spec

noncomputable section

namespace Cert.Agg

open Idealize.ShloMosaic

abbrev SN64 : Shape := ⟨2, ![100000, 64]⟩
abbrev SE : Shape := ⟨1, ![1600000]⟩
abbrev SE1 : Shape := ⟨2, ![1600000, 1]⟩
abbrev SE64 : Shape := ⟨2, ![1600000, 64]⟩
abbrev SN : Shape := ⟨1, ![100000]⟩
abbrev SN1 : Shape := ⟨2, ![100000, 1]⟩
abbrev S0 : Shape := ⟨0, ![]⟩

def rowGather : GatherDims SN64 SE1 SE64 where
  offsetDims := [1]
  collapsedSliceDims := [0]
  operandBatchingDims := []
  startIndicesBatchingDims := []
  startIndexMap := [0]
  indexVectorDim := 1
  sliceSizes := ![1, 64]
  wf := by decide

def rowScatter : ScatterDims SN64 SE1 SE64 where
  updateWindowDims := [1]
  insertedWindowDims := [0]
  scatterDimsToOperandDims := [0]
  indexVectorDim := 1
  wf := by decide

def flatScatter : ScatterDims SN SE1 SE where
  updateWindowDims := []
  insertedWindowDims := [0]
  scatterDimsToOperandDims := [0]
  indexVectorDim := 1
  wf := by decide

def srcRow (a1 : IVec ⟨2, ![2, 1600000]⟩ 32) : IVec SE 32 :=
  shapeCast SE (extractStridedSlice ⟨2, ![1, 1600000]⟩ ![0, 0] a1 (by decide)) (by decide)

def dstRow (a1 : IVec ⟨2, ![2, 1600000]⟩ 32) : IVec SE 32 :=
  shapeCast SE (extractStridedSlice ⟨2, ![1, 1600000]⟩ ![1, 0] a1 (by decide)) (by decide)

variable {F : FTy → Type} [FloatOps F]

def wrapCol (src : IVec SE 32) : IVec SE1 32 :=
  broadcastInDim SE1 ![0] (by decide)
    (select (cmpi .slt src (broadcastInDim SE ![] (by decide) (constantI S0 32 0#32)))
      (addi src (broadcastInDim SE ![] (by decide) (constantI S0 32 100000#32))) src)

def col (dst : IVec SE 32) : IVec SE1 32 := broadcastInDim SE1 ![0] (by decide) dst

def degree (dst : IVec SE 32) : FVec F SN .f32 :=
  Host.scatterAdd flatScatter (broadcastInDim SN ![] (by decide) (constant S0 .f32 0x00000000#32)) (col dst)
    (broadcastInDim SE ![] (by decide) (constant S0 .f32 0x3F800000#32))

def msgSum (h : FVec F SN64 .f32) (src dst : IVec SE 32) : FVec F SN64 .f32 :=
  Host.scatterAdd rowScatter (broadcastInDim SN64 ![] (by decide) (constant S0 .f32 0x00000000#32)) (col dst)
    (Host.gather rowGather h (wrapCol src))

def msgMean (h : FVec F SN64 .f32) (src dst : IVec SE 32) : FVec F SN64 .f32 :=
  Host.divf (msgSum h src dst)
    (broadcastInDim SN64 ![0, 1] (by decide)
      (broadcastInDim SN1 ![0] (by decide)
        (maximumf (degree dst) (broadcastInDim SN ![] (by decide) (constant S0 .f32 0x3F800000#32)))))

def cur {a b : Nat} (f : (⟨2, ![a, b]⟩ : Shape).Idx → EReal) : Cert.Spec.M a b := fun r j => f (ValueIdx.ix2 r j)

def cur1 {a : Nat} (f : (⟨1, ![a]⟩ : Shape).Idx → EReal) : Fin a → EReal := fun j => f (ValueIdx.ix1 j)

def curRow {a : Nat} (f : (⟨2, ![1, a]⟩ : Shape).Idx → EReal) : Fin a → EReal := fun j => f (ValueIdx.ix2 (0 : Fin 1) j)

def unc {a b : Nat} (g : Cert.Spec.M a b) : (⟨2, ![a, b]⟩ : Shape).Idx → EReal := fun i => g (i 0) (i 1)

theorem cur_unc {a b : Nat} (g : Cert.Spec.M a b) : cur (unc g) = g := rfl
theorem unc_cur {a b : Nat} (f : (⟨2, ![a, b]⟩ : Shape).Idx → EReal) : unc (cur f) = f := by
  funext i; exact congrArg f (ValueIdx.eq_ix2 i).symm

theorem eq_unc_of_apply {a b : Nat} (f : (⟨2, ![a, b]⟩ : Shape).Idx → EReal) (g : Cert.Spec.M a b)
    (h : ∀ r j, f (ValueIdx.ix2 r j) = g r j) : f = unc g := by
  funext i; rw [ValueIdx.eq_ix2 i]; exact h _ _

def RealArr {s : Shape} (f : s.Idx → EReal) : Prop := ∀ i, f i ≠ ⊤ ∧ f i ≠ ⊥

theorem real_iff {x : EReal} : (x ≠ ⊤ ∧ x ≠ ⊥) ↔ ∃ r : ℝ, x = (r : EReal) :=
  ⟨fun h => ⟨x.toReal, (EReal.coe_toReal h.1 h.2).symm⟩,
   fun ⟨r, hr⟩ => hr ▸ ⟨EReal.coe_ne_top r, EReal.coe_ne_bot r⟩⟩

theorem real_add {x y : EReal} (hx : x ≠ ⊤ ∧ x ≠ ⊥) (hy : y ≠ ⊤ ∧ y ≠ ⊥) : x + y ≠ ⊤ ∧ x + y ≠ ⊥ := by
  obtain ⟨a, rfl⟩ := real_iff.mp hx
  obtain ⟨b, rfl⟩ := real_iff.mp hy
  rw [← EReal.coe_add]
  exact ⟨EReal.coe_ne_top _, EReal.coe_ne_bot _⟩

theorem real_sum {ι : Type} (s : Finset ι) (f : ι → EReal) (hf : ∀ i, f i ≠ ⊤ ∧ f i ≠ ⊥) :
    (∑ i ∈ s, f i) ≠ ⊤ ∧ (∑ i ∈ s, f i) ≠ ⊥ := by
  rw [show (∑ i ∈ s, f i) = ∑ i ∈ s, (((f i).toReal : ℝ) : EReal) from
    Finset.sum_congr rfl fun i _ => (EReal.coe_toReal (hf i).1 (hf i).2).symm, Cert.Spec.coe_sum]
  exact ⟨EReal.coe_ne_top _, EReal.coe_ne_bot _⟩

theorem realArr_zero (s : Shape) : RealArr (constant (F := Ideal) s .f32 0x00000000#32) := fun i => by
  show Ideal.ofBits .f32 0x00000000#32 ≠ ⊤ ∧ Ideal.ofBits .f32 0x00000000#32 ≠ ⊥
  rw [Ideal.ofBits_zero_f32]
  exact ⟨EReal.zero_ne_top, EReal.zero_ne_bot⟩

theorem ofBits_one : Ideal.ofBits .f32 0x3F800000#32 = ((1 : ℝ) : EReal) := by
  simp [Ideal.ofBits, Ideal.ieee]
  rw [← EReal.coe_mul, ← EReal.coe_one, EReal.coe_eq_coe_iff]
  norm_num

theorem realArr_one (s : Shape) : RealArr (constant (F := Ideal) s .f32 0x3F800000#32) := fun i => by
  show Ideal.ofBits .f32 0x3F800000#32 ≠ ⊤ ∧ Ideal.ofBits .f32 0x3F800000#32 ≠ ⊥
  rw [ofBits_one]
  exact ⟨EReal.coe_ne_top _, EReal.coe_ne_bot _⟩

theorem realArr_broadcastInDim {s t : Shape} (dims : Fin s.rank → Fin t.rank) (hb : s.BroadcastsInDim t dims)
    (x : s.Idx → EReal) (hx : RealArr x) : RealArr (broadcastInDim t dims hb x) := fun j => hx _

theorem realArr_gather {s si t : Shape} {w : Nat} (d : GatherDims s si t) (x : s.Idx → EReal) (idx : IVec si w)
    (hx : RealArr x) : RealArr (Host.gather d x idx) := fun j => hx _

theorem realArr_scatterAdd {s si u : Shape} {w : Nat} (d : ScatterDims s si u) (x : FVec Ideal s .f32)
    (idx : IVec si w) (upd : FVec Ideal u .f32) (hx : RealArr x) (hu : RealArr upd) :
    RealArr (Host.scatterAdd (F := Ideal) d x idx upd) := fun i =>
  real_add (hx i) (real_sum _ upd hu)

theorem degree_real (dst : IVec SE 32) : RealArr (degree (F := Ideal) dst) :=
  realArr_scatterAdd _ _ _ _ (realArr_broadcastInDim _ _ _ (realArr_zero S0))
    (realArr_broadcastInDim _ _ _ (realArr_one S0))

theorem msgSum_real (h : FVec Ideal SN64 .f32) (src dst : IVec SE 32) (hh : RealArr h) :
    RealArr (msgSum (F := Ideal) h src dst) :=
  realArr_scatterAdd _ _ _ _ (realArr_broadcastInDim _ _ _ (realArr_zero S0)) (realArr_gather _ _ _ hh)

theorem max_one_real {s : Shape} (x one : FVec Ideal s .f32) (hx : RealArr x)
    (h1 : ∀ k, one k = ((1 : ℝ) : EReal)) (k : s.Idx) :
    ∃ r : ℝ, r ≠ 0 ∧ maximumf x one k = (r : EReal) := by
  obtain ⟨d, hd⟩ := real_iff.mp (hx k)
  refine ⟨max d 1, ne_of_gt (lt_of_lt_of_le one_pos (le_max_right d 1)), ?_⟩
  rw [ValueIdx.maximumf_apply, hd, h1]
  exact (EReal.coe_strictMono.monotone.map_max).symm

theorem nonzero_broadcastInDim {s t : Shape} (dims : Fin s.rank → Fin t.rank) (hb : s.BroadcastsInDim t dims)
    (x : s.Idx → EReal) (hx : ∀ k, ∃ r : ℝ, r ≠ 0 ∧ x k = (r : EReal)) (j : t.Idx) :
    ∃ r : ℝ, r ≠ 0 ∧ broadcastInDim t dims hb x j = (r : EReal) := hx _

theorem div_real {x y : EReal} (hx : x ≠ ⊤ ∧ x ≠ ⊥) (hy : ∃ r : ℝ, r ≠ 0 ∧ y = (r : EReal)) :
    Ideal.div x y ≠ ⊤ ∧ Ideal.div x y ≠ ⊥ := by
  obtain ⟨a, rfl⟩ := real_iff.mp hx
  obtain ⟨r, hr0, rfl⟩ := hy
  rw [Ideal.div_coe hr0, ← EReal.coe_mul]
  exact ⟨EReal.coe_ne_top _, EReal.coe_ne_bot _⟩

theorem realArr_divf {s : Shape} (a b : FVec Ideal s .f32) (ha : RealArr a)
    (hb : ∀ i, ∃ r : ℝ, r ≠ 0 ∧ b i = (r : EReal)) : RealArr (Host.divf a b) := fun i =>
  div_real (ha i) (hb i)

theorem msgMean_real (h : FVec Ideal SN64 .f32) (src dst : IVec SE 32) (hh : RealArr h) :
    RealArr (msgMean (F := Ideal) h src dst) := by
  unfold msgMean
  exact realArr_divf _ _ (msgSum_real h src dst hh)
    (nonzero_broadcastInDim _ _ _ (nonzero_broadcastInDim _ _ _
      (max_one_real (degree dst) _ (degree_real dst) (fun _ => ofBits_one))))

end Cert.Agg

end
-- ==== Proof.KI.LinValueCommon.lean ====
import proofs.«422895_j12790412608056_1_alg».proof.Proof.Gen.KernelIdeal
import proofs.«422895_j12790412608056_1_alg».proof.Proof.Agg
import Idealize.ShloMosaic.PureOps.Ideal.Laws
import Idealize.ShloMosaic.Lib.StackMember

noncomputable section

namespace Cert.KernelIdeal.Hand

open Idealize.ShloMosaic Idealize.ShloMosaic.ValueIdx
open Cert.KernelIdeal
open scoped BigOperators

/-- The body's dimension numbers are the plain product's, so a product into a zero accumulator is the plain product. -/
theorem lin_mm_apply {φ₁ φ₂ : FTy} (x : FVec Ideal S2000x64 φ₁) (w : FVec Ideal S64x64 φ₂) (p : Fin 2000) (q : Fin 64) :
    FloatOps.matmul dot_S2000x64_S64x64_S2000x64_1_0_0_1_n_n none x w (constant S2000x64 .f32 0x00000000#32) (ix2 p q)
      = ∑ k : Fin 64, x (ix2 p k) * w (ix2 k q) :=
  (Ideal.matmul_constant_zero_apply _ none x w _).trans
    ((Ideal.dotGeneral_apply (DotDims.plain 2000 64 64) none _ x w _).symm.trans (StackMember.dotGeneral_plain_apply none x w p q))

/-- The column sums of a 2000 x 64 block, started from zero. -/
theorem lin_colsum_apply (src : FVec Ideal S2000x64 .f32) (h : S2000x64.Reduces [0] S64) (hφ : FKind.Formats .f32)
    (hacc : (0x00000000#32 : BitVec 32) = FKind.add.neutral .f32 hφ) (q : Fin 64) :
    multiReduction .add [0] S64 src 0x00000000#32 h hφ hacc (ix1 q) = ∑ p : Fin 2000, src (ix2 p q) :=
  (Ideal.multiReduction_add_single src _ h hφ hacc (ix1 q)).trans
    (Finset.sum_congr rfl fun p _ => congrArg src (Shape.idx_ext₂ rfl rfl))

/-- Row p of the block of 2000 rows at grid point t. -/
def linRow (t : Fin 50) (p : Fin 2000) : Fin 100000 := ⟨2000 * t.val + p.val, by omega⟩

/-- The sum of f over block t's rows; zero past the 50 blocks. -/
def linBlkSum (f : Fin 100000 → EReal) (t : ℕ) : EReal := if h : t < 50 then ∑ p : Fin 2000, f (linRow ⟨t, h⟩ p) else 0

/-- The 100000 rows are 50 blocks of 2000, so a sum over all rows is the sum of the blocks' sums. -/
theorem lin_sum_rows (f : Fin 100000 → EReal) : ∑ r : Fin 100000, f r = ∑ t ∈ Finset.range 50, linBlkSum f t := by
  rw [← Fin.sum_univ_eq_sum_range (linBlkSum f) 50,
    ← Equiv.sum_comp (finProdFinEquiv.trans (finCongr (by norm_num)) : Fin 50 × Fin 2000 ≃ Fin 100000) f, Fintype.sum_prod_type]
  refine Finset.sum_congr rfl fun t _ => ?_
  rw [linBlkSum, dif_pos t.isLt]
  exact Finset.sum_congr rfl fun p _ => congrArg f (Fin.ext (Nat.add_comm _ _))

end Cert.KernelIdeal.Hand

end
-- ==== Proof.KI.Lin0Value.lean ====
import proofs.«422895_j12790412608056_1_alg».proof.Proof.KI.Lin0
import proofs.«422895_j12790412608056_1_alg».proof.Proof.KI.LinValueCommon
import Idealize.ShloMosaic.Lib.ValueLayout
import Idealize.ShloMosaic.Lib.Pipeline.Value

noncomputable section

namespace Cert.KernelIdeal.Hand

open Idealize.ShloMosaic Idealize.ShloMosaic.TcCoe
open Idealize.ShloMosaic.Pipeline (Dat Cfg Window)
open Cert.KernelIdeal Cert.KernelIdeal.Gen
open Idealize.ShloMosaic.ValueIdx
open Cert.Agg (cur cur1 curRow unc)
open scoped BigOperators

section Arrays
variable (V : (c : Dev nD) → (b : Ref sig .tc) → Buf (Elt Ideal) ((c : Thread nD τ).loc b))

/-- The call's five input arrays combined: the two tables of rows times the two weight tables, plus the bias row. -/
def Y0 (c : Dev nD) : Cert.Spec.M 100000 64 :=
  Cert.Spec.lin (cur (V c (Pipeline.arrRef spec0 0))) (cur (V c (Pipeline.arrRef spec0 1))) (cur (V c (Pipeline.arrRef spec0 2)))
    (cur (V c (Pipeline.arrRef spec0 3))) (curRow (V c (Pipeline.arrRef spec0 4)))

/-- An entry of the block: each product starts from zero and the bias row is laid along every row. -/
theorem k0_pay4_apply (x0 x1 : Vec Ideal S2000x64 .f32) (x2 x3 : Vec Ideal S64x64 .f32) (x4 : Vec Ideal S1x64 .f32)
    (p : Fin 2000) (q : Fin 64) :
    k0_pay4 (F := Ideal) x0 x1 x2 x3 x4 (ix2 p q)
      = (∑ k : Fin 64, x0 (ix2 p k) * x2 (ix2 k q)) + (∑ k : Fin 64, x1 (ix2 p k) * x3 (ix2 k q)) + x4 (ix2 (0 : Fin 1) q) := by
  unfold k0_pay4
  simp only [shapeCast_self, matmul]
  rw [addf_apply, addf_apply, lin_mm_apply, lin_mm_apply, broadcastTo_1b_ab_apply]
  rfl

/-- One point's step of the two carried rows at column q: each gains the block's column sum, of y and of y². -/
theorem k0_pay5_apply (x0 x1 : Vec Ideal S2000x64 .f32) (x2 x3 : Vec Ideal S64x64 .f32) (x4 s : Vec Ideal S1x64 .f32) (q : Fin 64) :
    k0_pay5 (F := Ideal) x0 x1 x2 x3 x4 s (ix2 (0 : Fin 1) q)
      = s (ix2 (0 : Fin 1) q) + ∑ p : Fin 2000, k0_pay4 (F := Ideal) x0 x1 x2 x3 x4 (ix2 p q) := by
  unfold k0_pay5
  exact (congrFun (shapeCast_self _ _) _).trans (congrArg (_ + ·) ((shapeCast_a_1a_apply _ _ 0 q).trans (lin_colsum_apply _ _ _ _ q)))
theorem k0_pay1_apply (x0 x1 : Vec Ideal S2000x64 .f32) (x2 x3 : Vec Ideal S64x64 .f32) (x4 s : Vec Ideal S1x64 .f32) (q : Fin 64) :
    k0_pay1 (F := Ideal) s (k0_pay6 (F := Ideal) x0 x1 x2 x3 x4) (ix2 (0 : Fin 1) q)
      = s (ix2 (0 : Fin 1) q)
        + ∑ p : Fin 2000, k0_pay4 (F := Ideal) x0 x1 x2 x3 x4 (ix2 p q) * k0_pay4 (F := Ideal) x0 x1 x2 x3 x4 (ix2 p q) := by
  unfold k0_pay1 k0_pay6
  exact (congrFun (shapeCast_self _ _) _).trans (congrArg (_ + ·) ((shapeCast_a_1a_apply _ _ 0 q).trans (lin_colsum_apply _ _ _ _ q)))

/-- The two rows start from zero. -/
theorem k0_pay23_apply (i : S1x64.Idx) : k0_pay2 (F := Ideal) i = 0 ∧ k0_pay3 (F := Ideal) i = 0 := by
  unfold k0_pay2 k0_pay3
  constructor <;> exact (congrFun (shapeCast_self _ _) i).trans Ideal.ofBits_zero_f32

/-- Block t of windows 0, 1 and 5 starts at row 2000·t of its array; every block of the other windows starts at row 0. -/
theorem off0 : ∀ (w : Fin 8) (t : Fin grid0.N) (a : Fin (win0 w).shape.rank),
    (win0 w).index t a * (win0 w).size a = if (w = 0 ∨ w = 1 ∨ w = 5) ∧ a.val = 0 then 2000 * t.val else 0 := by
  decide +kernel

theorem embv0 (w : Fin 8) (t : Fin grid0.N) (y : ((win0 w).xblock (grid0.coords t)).Idx) (a : Fin (win0 w).shape.rank) :
    (((win0 w).rect t).emb y a : ℕ) = (if (w = 0 ∨ w = 1 ∨ w = 5) ∧ a.val = 0 then 2000 * t.val else 0) + y a := by
  rw [Window.rect_emb_val, off0]

/-- The block's inputs are the arrays' entries 2000 t rows down (windows 0, 1) or in place (2, 3, 4), so the block is rows 2000 t … of the table. -/
theorem yblk0_apply (c : Dev nD) (t : Fin cfg0.N) (p : Fin 2000) (q : Fin 64) :
    yblk0 V c t (ix2 p q) = Y0 V c (linRow t p) q := by
  have h0 k : iblk0 V c 0 t (ix2 p k) = V c (Pipeline.arrRef spec0 0) (ix2 (linRow t p) k) :=
    congrArg _ (Shape.idx_ext₂ (embv0 0 t _ _) ((embv0 0 t _ _).trans (Nat.zero_add _)))
  have h1 k : iblk0 V c 1 t (ix2 p k) = V c (Pipeline.arrRef spec0 1) (ix2 (linRow t p) k) :=
    congrArg _ (Shape.idx_ext₂ (embv0 1 t _ _) ((embv0 1 t _ _).trans (Nat.zero_add _)))
  have h2 k : iblk0 V c 2 t (ix2 k q) = V c (Pipeline.arrRef spec0 2) (ix2 k q) :=
    congrArg _ (Shape.idx_ext₂ ((embv0 2 t _ _).trans (Nat.zero_add _)) ((embv0 2 t _ _).trans (Nat.zero_add _)))
  have h3 k : iblk0 V c 3 t (ix2 k q) = V c (Pipeline.arrRef spec0 3) (ix2 k q) :=
    congrArg _ (Shape.idx_ext₂ ((embv0 3 t _ _).trans (Nat.zero_add _)) ((embv0 3 t _ _).trans (Nat.zero_add _)))
  have h4 : iblk0 V c 4 t (ix2 (0 : Fin 1) q) = V c (Pipeline.arrRef spec0 4) (ix2 (0 : Fin 1) q) :=
    congrArg _ (Shape.idx_ext₂ ((embv0 4 t _ _).trans (Nat.zero_add _)) ((embv0 4 t _ _).trans (Nat.zero_add _)))
  unfold yblk0
  rw [k0_pay4_apply]
  simp only [h0, h1, h2, h3, h4]
  rfl

/-- The 50 blocks of y tile the first output array, so it ends as the whole table. -/
theorem final0_5 (c : Dev nD) : (dat0 (F := Ideal) V c).arrAt 5 cfg0.N = unc (Y0 V c) := by
  have e5 (t : Fin cfg0.N) (p : Fin 2000) (q : Fin 64) : ((cfg0.win 5).blk t).view.emb (ix2 p q) = ix2 (linRow t p) q :=
    Shape.idx_ext₂ (embv0 5 t _ _) ((embv0 5 t _ _).trans (Nat.zero_add _))
  refine (dat0 V c).arrAt_eq_of_cover 5 _ (fun t _ => funext fun j => ?_) fun i => ?_
  · obtain ⟨p, q, rfl⟩ : ∃ (p : Fin 2000) (q : Fin 64), j = ix2 p q := ⟨j 0, j 1, eq_ix2 j⟩
    exact (yblk0_apply V c t p q).trans (congrArg (unc (Y0 V c)) (e5 t p q)).symm
  · have hi : (i 0).val < 100000 := (i 0).isLt
    have ht : (i 0).val / 2000 < cfg0.N := by show _ < 50; omega
    refine ⟨⟨_, ht⟩, flush0_5 _, ?_⟩
    exact Finset.mem_map.mpr ⟨ix2 ⟨(i 0).val % 2000, Nat.mod_lt _ (by norm_num)⟩ (i 1), Finset.mem_univ _,
      (e5 ⟨_, ht⟩ _ _).trans (Shape.idx_ext₂ (Nat.div_add_mod _ 2000) rfl)⟩

/-- After point n the carried rows hold the column sums of y and of y² over the blocks 0 … n. -/
theorem accAt0_apply (c : Dev nD) (q : Fin 64) : ∀ (n : ℕ) (h : n < cfg0.N),
    (accAt0 V c n h).1 (ix2 (0 : Fin 1) q) = ∑ t ∈ Finset.range (n + 1), linBlkSum (fun r => Y0 V c r q) t
    ∧ (accAt0 V c n h).2 (ix2 (0 : Fin 1) q) = ∑ t ∈ Finset.range (n + 1), linBlkSum (fun r => Y0 V c r q * Y0 V c r q) t := by
  have step (n : ℕ) (h : n < cfg0.N) (s s' : Vec Ideal S1x64 .f32) :
      k0_pay5 (F := Ideal) (iblk0 V c 0 ⟨n, h⟩) (iblk0 V c 1 ⟨n, h⟩) (iblk0 V c 2 ⟨n, h⟩) (iblk0 V c 3 ⟨n, h⟩) (iblk0 V c 4 ⟨n, h⟩) s (ix2 (0 : Fin 1) q)
        = s (ix2 (0 : Fin 1) q) + linBlkSum (fun r => Y0 V c r q) n
      ∧ k0_pay1 (F := Ideal) s' (k0_pay6 (F := Ideal) (iblk0 V c 0 ⟨n, h⟩) (iblk0 V c 1 ⟨n, h⟩) (iblk0 V c 2 ⟨n, h⟩) (iblk0 V c 3 ⟨n, h⟩) (iblk0 V c 4 ⟨n, h⟩)) (ix2 (0 : Fin 1) q)
        = s' (ix2 (0 : Fin 1) q) + linBlkSum (fun r => Y0 V c r q * Y0 V c r q) n := by
    have hy p := yblk0_apply V c ⟨n, h⟩ p q
    unfold yblk0 at hy
    rw [k0_pay5_apply, k0_pay1_apply, linBlkSum, linBlkSum, dif_pos (show n < 50 from h), dif_pos (show n < 50 from h)]
    simp only [hy]
    exact ⟨rfl, rfl⟩
  intro n
  induction n with
  | zero =>
    intro h
    have e := step 0 h (k0_pay2 (F := Ideal)) (k0_pay3 (F := Ideal))
    rw [(k0_pay23_apply _).1, (k0_pay23_apply _).2, zero_add, zero_add] at e
    rwa [Finset.sum_range_one, Finset.sum_range_one]
  | succ n ih =>
    intro h
    have e := step (n + 1) h (accAt0 V c n (Nat.lt_of_succ_lt h)).1 (accAt0 V c n (Nat.lt_of_succ_lt h)).2
    rw [(ih _).1, (ih _).2] at e
    rwa [Finset.sum_range_succ _ (n + 1), Finset.sum_range_succ _ (n + 1)]

/-- After the call each statistics array holds its carried row as it stands after the last point. -/
theorem arr0_6 (c : Dev nD) : (dat0 (F := Ideal) V c).arrAt 6 cfg0.N = (accAt0 V c 49 (by decide)).1 := by
  have e6 (t : Fin cfg0.N) (j : S1x64.Idx) : ((cfg0.win 6).blk t).view.emb j = j :=
    Shape.idx_ext₂ ((embv0 6 t _ _).trans (Nat.zero_add _)) ((embv0 6 t _ _).trans (Nat.zero_add _))
  refine (dat0 V c).arrAt_eq_of_cover 6 _ (fun t hf => ?_) fun i => ⟨⟨49, by decide⟩, (flush0_6 _).mpr rfl, ?_⟩
  · obtain ⟨n, hn⟩ := t
    obtain rfl : n = 49 := by have : n % 50 = 49 := (flush0_6 _).mp hf; have : n < 50 := hn; omega
    funext j
    show (accAt0 V c 49 _).1 j = (accAt0 V c 49 _).1 (((cfg0.win 6).blk _).view.emb j)
    rw [e6]
  · exact Finset.mem_map.mpr ⟨i, Finset.mem_univ _, e6 _ i⟩
theorem arr0_7 (c : Dev nD) : (dat0 (F := Ideal) V c).arrAt 7 cfg0.N = (accAt0 V c 49 (by decide)).2 := by
  have e7 (t : Fin cfg0.N) (j : S1x64.Idx) : ((cfg0.win 7).blk t).view.emb j = j :=
    Shape.idx_ext₂ ((embv0 7 t _ _).trans (Nat.zero_add _)) ((embv0 7 t _ _).trans (Nat.zero_add _))
  refine (dat0 V c).arrAt_eq_of_cover 7 _ (fun t hf => ?_) fun i => ⟨⟨49, by decide⟩, (flush0_7 _).mpr rfl, ?_⟩
  · obtain ⟨n, hn⟩ := t
    obtain rfl : n = 49 := by have : n % 50 = 49 := (flush0_7 _).mp hf; have : n < 50 := hn; omega
    funext j
    show (accAt0 V c 49 _).2 j = (accAt0 V c 49 _).2 (((cfg0.win 7).blk _).view.emb j)
    rw [e7]
  · exact Finset.mem_map.mpr ⟨i, Finset.mem_univ _, e7 _ i⟩

/-- So the second output array is y's column sums over all rows: the 50 blocks' sums added up. -/
theorem final0_6 (c : Dev nD) (j : Fin 64) :
    (dat0 (F := Ideal) V c).arrAt 6 cfg0.N (ix2 (0 : Fin 1) j) = Cert.Spec.colSum (Y0 V c) j := by
  rw [arr0_6, (accAt0_apply V c j 49 _).1]
  exact (lin_sum_rows _).symm

/-- Likewise the third is the column sums of y². -/
theorem final0_7 (c : Dev nD) (j : Fin 64) :
    (dat0 (F := Ideal) V c).arrAt 7 cfg0.N (ix2 (0 : Fin 1) j) = Cert.Spec.colSumSq (Y0 V c) j := by
  rw [arr0_7, (accAt0_apply V c j 49 _).2]
  exact (lin_sum_rows _).symm

end Arrays

end Cert.KernelIdeal.Hand

end
-- ==== Proof.KI.BnValueCommon.lean ====
import proofs.«422895_j12790412608056_1_alg».proof.Proof.KI.BnCommon
import proofs.«422895_j12790412608056_1_alg».proof.Proof.Agg
import Idealize.ShloMosaic.Lib.ValueIdx
import Idealize.ShloMosaic.Lib.ValueLayout

noncomputable section

namespace Cert.KernelIdeal.Hand

open Idealize.ShloMosaic Idealize.ShloMosaic.ValueIdx
open Cert.KernelIdeal Cert.KernelIdeal.Gen

theorem spread_row (x : S1x64.Idx → EReal) (p : Fin 2000) (q : Fin 64) :
    broadcastTo S2000x64 x broadcasts_S1x64_S2000x64 (ix2 p q) = x (ix2 (0 : Fin 1) q) :=
  broadcastTo_apply x _ _ _ (fun a => by match a with | ⟨0, _⟩ => rfl | ⟨1, _⟩ => rfl)

theorem select_gt (a b u v : EReal) :
    Scalar.select (FloatOps.cmpf (F := Ideal) (φ := .f32) .ogt a b) u v = if b < a then u else v := by
  show (if BitVec.ofBool (decide (b < a)) = 1#1 then u else v) = _
  by_cases h : b < a <;> simp [h]

-- One entry of the normalised, scaled, shifted and rectified table, from its five inputs.
def leaky (y m v g s : EReal) : EReal :=
  if 0 < (y - m) * Ideal.rsqrt (v + Cert.Spec.eps) * g + s then (y - m) * Ideal.rsqrt (v + Cert.Spec.eps) * g + s
  else ((y - m) * Ideal.rsqrt (v + Cert.Spec.eps) * g + s) * Cert.Spec.slope

-- The whole table as an array.
def bnTab (a0 : S100000x64.Idx → EReal) (a1 a2 a3 a4 : S1x64.Idx → EReal) : S100000x64.Idx → EReal :=
  Cert.Agg.unc (Cert.Spec.bnK (Cert.Agg.cur a0) (Cert.Agg.curRow a1) (Cert.Agg.curRow a2) (Cert.Agg.curRow a3) (Cert.Agg.curRow a4))

end Cert.KernelIdeal.Hand

end
-- ==== Proof.KI.Bn1Value.lean ====
import proofs.«422895_j12790412608056_1_alg».proof.Proof.KI.Bn1
import proofs.«422895_j12790412608056_1_alg».proof.Proof.KI.BnValueCommon

noncomputable section

namespace Cert.KernelIdeal.Hand

open Idealize.ShloMosaic Idealize.ShloMosaic.TcCoe Idealize.ShloMosaic.ValueIdx
open Cert.KernelIdeal Cert.KernelIdeal.Gen

theorem bnpay1_apply (x0 : Vec Ideal S2000x64 .f32) (x1 x2 x3 x4 : Vec Ideal S1x64 .f32) (p : Fin 2000) (q : Fin 64) :
    k1_pay1 (F := Ideal) x0 x1 x2 x3 x4 (ix2 p q)
      = leaky (x0 (ix2 p q)) (x1 (ix2 (0 : Fin 1) q)) (x2 (ix2 (0 : Fin 1) q)) (x3 (ix2 (0 : Fin 1) q)) (x4 (ix2 (0 : Fin 1) q)) := by
  unfold k1_pay1
  simp only [shapeCast_self]
  rw [select_apply, cmpf_apply, select_gt]
  simp only [mulf_apply, addf_apply, subf_apply, broadcast_apply, spread_row]
  simp only [Ideal.ofBits_def, Ideal.ofBits_zero_f32]
  rfl

theorem block_index1 : ∀ t : Fin cfg1.N,
    win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

def rowOf1 (t : Fin cfg1.N) (p : Fin 2000) : Fin 100000 :=
  ⟨t.val * 2000 + p.val, by have h : t.val < 50 := Nat.lt_of_lt_of_eq t.isLt N_1; omega⟩

-- Block t of either table window is rows 2000·t … 2000·t + 1999; the four rows' blocks are the rows.
theorem emb1_5 (t : Fin cfg1.N) (p : Fin 2000) (q : Fin 64) :
    ((cfg1.win 5).blk t).view.emb (ix2 p q) = ix2 (n0 := 100000) (n1 := 64) (rowOf1 t p) q :=
  funext fun a => Fin.ext (by
    have h := block_index1 t
    match a with
    | ⟨0, _⟩ => show win1_5.index t (0 : Fin 2) * 2000 + 1 * p.val = t.val * 2000 + p.val; omega
    | ⟨1, _⟩ => show win1_5.index t (1 : Fin 2) * 64 + 1 * q.val = q.val; omega)

theorem emb1_0 (t : Fin cfg1.N) (p : Fin 2000) (q : Fin 64) :
    ((cfg1.win 0).blk t).view.emb (ix2 p q) = ix2 (n0 := 100000) (n1 := 64) (rowOf1 t p) q :=
  funext fun a => Fin.ext (by
    have h := block_index1 t
    match a with
    | ⟨0, _⟩ => show win1_0.index t (0 : Fin 2) * 2000 + 1 * p.val = t.val * 2000 + p.val; omega
    | ⟨1, _⟩ => show win1_0.index t (1 : Fin 2) * 64 + 1 * q.val = q.val; omega)

theorem emb1_1 (t : Fin cfg1.N) (q : Fin 64) :
    ((cfg1.win 1).blk t).view.emb (ix2 (0 : Fin 1) q) = ix2 (n0 := 1) (n1 := 64) (0 : Fin 1) q :=
  funext fun a => Fin.ext (win1_1.rect_emb_val_of_index_zero t a (match a with | ⟨0, _⟩ => rfl | ⟨1, _⟩ => rfl) _)

theorem emb1_2 (t : Fin cfg1.N) (q : Fin 64) :
    ((cfg1.win 2).blk t).view.emb (ix2 (0 : Fin 1) q) = ix2 (n0 := 1) (n1 := 64) (0 : Fin 1) q :=
  funext fun a => Fin.ext (win1_2.rect_emb_val_of_index_zero t a (match a with | ⟨0, _⟩ => rfl | ⟨1, _⟩ => rfl) _)

theorem emb1_3 (t : Fin cfg1.N) (q : Fin 64) :
    ((cfg1.win 3).blk t).view.emb (ix2 (0 : Fin 1) q) = ix2 (n0 := 1) (n1 := 64) (0 : Fin 1) q :=
  funext fun a => Fin.ext (win1_3.rect_emb_val_of_index_zero t a (match a with | ⟨0, _⟩ => rfl | ⟨1, _⟩ => rfl) _)

theorem emb1_4 (t : Fin cfg1.N) (q : Fin 64) :
    ((cfg1.win 4).blk t).view.emb (ix2 (0 : Fin 1) q) = ix2 (n0 := 1) (n1 := 64) (0 : Fin 1) q :=
  funext fun a => Fin.ext (win1_4.rect_emb_val_of_index_zero t a (match a with | ⟨0, _⟩ => rfl | ⟨1, _⟩ => rfl) _)

section Region
variable (V : (c : Dev nD) → (b : Ref sig .tc) → Buf (Elt Ideal) ((c : Thread nD τ).loc b))

theorem iblk1_0_apply (c : Dev nD) (t : Fin cfg1.N) (p : Fin 2000) (q : Fin 64) :
    iblk1 V c 0 t (ix2 p q) = V c (Pipeline.arrRef spec1 0) (ix2 (n0 := 100000) (n1 := 64) (rowOf1 t p) q) :=
  congrArg (V c (Pipeline.arrRef spec1 0)) (emb1_0 t p q)

theorem iblk1_1_apply (c : Dev nD) (t : Fin cfg1.N) (q : Fin 64) :
    iblk1 V c 1 t (ix2 (0 : Fin 1) q) = V c (Pipeline.arrRef spec1 1) (ix2 (n0 := 1) (n1 := 64) (0 : Fin 1) q) :=
  congrArg (V c (Pipeline.arrRef spec1 1)) (emb1_1 t q)

theorem iblk1_2_apply (c : Dev nD) (t : Fin cfg1.N) (q : Fin 64) :
    iblk1 V c 2 t (ix2 (0 : Fin 1) q) = V c (Pipeline.arrRef spec1 2) (ix2 (n0 := 1) (n1 := 64) (0 : Fin 1) q) :=
  congrArg (V c (Pipeline.arrRef spec1 2)) (emb1_2 t q)

theorem iblk1_3_apply (c : Dev nD) (t : Fin cfg1.N) (q : Fin 64) :
    iblk1 V c 3 t (ix2 (0 : Fin 1) q) = V c (Pipeline.arrRef spec1 3) (ix2 (n0 := 1) (n1 := 64) (0 : Fin 1) q) :=
  congrArg (V c (Pipeline.arrRef spec1 3)) (emb1_3 t q)

theorem iblk1_4_apply (c : Dev nD) (t : Fin cfg1.N) (q : Fin 64) :
    iblk1 V c 4 t (ix2 (0 : Fin 1) q) = V c (Pipeline.arrRef spec1 4) (ix2 (n0 := 1) (n1 := 64) (0 : Fin 1) q) :=
  congrArg (V c (Pipeline.arrRef spec1 4)) (emb1_4 t q)

theorem flushed1_5_apply (c : Dev nD) (t : Fin cfg1.N) (p : Fin 2000) (q : Fin 64) :
    (dat1 (F := Ideal) V c).flushed 5 t (ix2 p q)
      = k1_pay1 (F := Ideal) (iblk1 V c 0 t) (iblk1 V c 1 t) (iblk1 V c 2 t) (iblk1 V c 3 t) (iblk1 V c 4 t) (ix2 p q) := by
  show (cfg1.win 5).cut (grid1.coords t) ((dat1 V c).after 5 t) (ix2 p q) = _
  rw [after1_5]
  unfold out1_5
  rw [View.canon_unit_zero zero_offsets]
  rfl

theorem blk_tab1 (a0 : S100000x64.Idx → EReal) (a1 a2 a3 a4 : S1x64.Idx → EReal) (t : Fin cfg1.N) (p : Fin 2000) (q : Fin 64) :
    ((cfg1.win 5).blk t).view.read (Elt Ideal) (bnTab a0 a1 a2 a3 a4) (ix2 p q)
      = leaky (a0 (ix2 (rowOf1 t p) q)) (a1 (ix2 (0 : Fin 1) q)) (a2 (ix2 (0 : Fin 1) q)) (a3 (ix2 (0 : Fin 1) q)) (a4 (ix2 (0 : Fin 1) q)) := by
  show bnTab a0 a1 a2 a3 a4 (((cfg1.win 5).blk t).view.emb (ix2 p q)) = _
  rw [emb1_5]; rfl

-- Point t's output block is block t of the table: entry by entry the payload reads the inputs at the entry's row and column.
theorem flushed1_5 (c : Dev nD) (t : Fin cfg1.N) :
    (dat1 (F := Ideal) V c).flushed 5 t = ((cfg1.win 5).blk t).view.read (Elt Ideal)
      (bnTab (V c (Pipeline.arrRef spec1 0)) (V c (Pipeline.arrRef spec1 1)) (V c (Pipeline.arrRef spec1 2))
        (V c (Pipeline.arrRef spec1 3)) (V c (Pipeline.arrRef spec1 4))) := by
  funext j
  obtain ⟨p, q, rfl⟩ : ∃ (p : Fin 2000) (q : Fin 64), j = ix2 p q := ⟨j 0, j 1, eq_ix2 j⟩
  rw [flushed1_5_apply, blk_tab1, bnpay1_apply]
  exact congr (congr (congr (congr (congrArg leaky (iblk1_0_apply V c t p q)) (iblk1_1_apply V c t q)) (iblk1_2_apply V c t q))
    (iblk1_3_apply V c t q)) (iblk1_4_apply V c t q)

-- Row r lies in the block of point r / 2000.
theorem rows_covered1_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by rw [show cfg1.N = 50 from N_1]; omega⟩, rfl⟩
  have h := block_index1 t
  refine ⟨t, flush1_5 t, ?_⟩
  show i ∈ ((View.whole (Pipeline.arrRef spec1 5)).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

theorem final1_5 (c : Dev nD) :
    (dat1 (F := Ideal) V c).arrAt 5 cfg1.N
      = Cert.Agg.unc (Cert.Spec.bnK (Cert.Agg.cur (V c (Pipeline.arrRef spec1 0)))
          (Cert.Agg.curRow (V c (Pipeline.arrRef spec1 1))) (Cert.Agg.curRow (V c (Pipeline.arrRef spec1 2)))
          (Cert.Agg.curRow (V c (Pipeline.arrRef spec1 3))) (Cert.Agg.curRow (V c (Pipeline.arrRef spec1 4)))) :=
  (dat1 (F := Ideal) V c).arrAt_eq_of_cover 5 (bnTab _ _ _ _ _) (fun t _ => flushed1_5 V c t) rows_covered1_5

end Region

end Cert.KernelIdeal.Hand

end
-- ==== Proof.KI.Lin2Value.lean ====
import proofs.«422895_j12790412608056_1_alg».proof.Proof.KI.Lin2
import proofs.«422895_j12790412608056_1_alg».proof.Proof.KI.LinValueCommon
import Idealize.ShloMosaic.Lib.ValueLayout
import Idealize.ShloMosaic.Lib.Pipeline.Value

noncomputable section

namespace Cert.KernelIdeal.Hand

open Idealize.ShloMosaic Idealize.ShloMosaic.TcCoe
open Idealize.ShloMosaic.Pipeline (Dat Cfg Window)
open Cert.KernelIdeal Cert.KernelIdeal.Gen
open Idealize.ShloMosaic.ValueIdx
open Cert.Agg (cur cur1 curRow unc)
open scoped BigOperators

section Arrays
variable (V : (c : Dev nD) → (b : Ref sig .tc) → Buf (Elt Ideal) ((c : Thread nD τ).loc b))

/-- The call's five input arrays combined: the two tables of rows times the two weight tables, plus the bias row. -/
def Y2 (c : Dev nD) : Cert.Spec.M 100000 64 :=
  Cert.Spec.lin (cur (V c (Pipeline.arrRef spec2 0))) (cur (V c (Pipeline.arrRef spec2 1))) (cur (V c (Pipeline.arrRef spec2 2)))
    (cur (V c (Pipeline.arrRef spec2 3))) (curRow (V c (Pipeline.arrRef spec2 4)))

/-- An entry of the block: each product starts from zero and the bias row is laid along every row. -/
theorem k2_pay4_apply (x0 x1 : Vec Ideal S2000x64 .f32) (x2 x3 : Vec Ideal S64x64 .f32) (x4 : Vec Ideal S1x64 .f32)
    (p : Fin 2000) (q : Fin 64) :
    k2_pay4 (F := Ideal) x0 x1 x2 x3 x4 (ix2 p q)
      = (∑ k : Fin 64, x0 (ix2 p k) * x2 (ix2 k q)) + (∑ k : Fin 64, x1 (ix2 p k) * x3 (ix2 k q)) + x4 (ix2 (0 : Fin 1) q) := by
  unfold k2_pay4
  simp only [shapeCast_self, matmul]
  rw [addf_apply, addf_apply, lin_mm_apply, lin_mm_apply, broadcastTo_1b_ab_apply]
  rfl

/-- One point's step of the two carried rows at column q: each gains the block's column sum, of y and of y². -/
theorem k2_pay5_apply (x0 x1 : Vec Ideal S2000x64 .f32) (x2 x3 : Vec Ideal S64x64 .f32) (x4 s : Vec Ideal S1x64 .f32) (q : Fin 64) :
    k2_pay5 (F := Ideal) x0 x1 x2 x3 x4 s (ix2 (0 : Fin 1) q)
      = s (ix2 (0 : Fin 1) q) + ∑ p : Fin 2000, k2_pay4 (F := Ideal) x0 x1 x2 x3 x4 (ix2 p q) := by
  unfold k2_pay5
  exact (congrFun (shapeCast_self _ _) _).trans (congrArg (_ + ·) ((shapeCast_a_1a_apply _ _ 0 q).trans (lin_colsum_apply _ _ _ _ q)))
theorem k2_pay1_apply (x0 x1 : Vec Ideal S2000x64 .f32) (x2 x3 : Vec Ideal S64x64 .f32) (x4 s : Vec Ideal S1x64 .f32) (q : Fin 64) :
    k2_pay1 (F := Ideal) s (k2_pay6 (F := Ideal) x0 x1 x2 x3 x4) (ix2 (0 : Fin 1) q)
      = s (ix2 (0 : Fin 1) q)
        + ∑ p : Fin 2000, k2_pay4 (F := Ideal) x0 x1 x2 x3 x4 (ix2 p q) * k2_pay4 (F := Ideal) x0 x1 x2 x3 x4 (ix2 p q) := by
  unfold k2_pay1 k2_pay6
  exact (congrFun (shapeCast_self _ _) _).trans (congrArg (_ + ·) ((shapeCast_a_1a_apply _ _ 0 q).trans (lin_colsum_apply _ _ _ _ q)))

/-- The two rows start from zero. -/
theorem k2_pay23_apply (i : S1x64.Idx) : k2_pay2 (F := Ideal) i = 0 ∧ k2_pay3 (F := Ideal) i = 0 := by
  unfold k2_pay2 k2_pay3
  constructor <;> exact (congrFun (shapeCast_self _ _) i).trans Ideal.ofBits_zero_f32

/-- Block t of windows 0, 1 and 5 starts at row 2000·t of its array; every block of the other windows starts at row 0. -/
theorem off2 : ∀ (w : Fin 8) (t : Fin grid2.N) (a : Fin (win2 w).shape.rank),
    (win2 w).index t a * (win2 w).size a = if (w = 0 ∨ w = 1 ∨ w = 5) ∧ a.val = 0 then 2000 * t.val else 0 := by
  decide +kernel

theorem embv2 (w : Fin 8) (t : Fin grid2.N) (y : ((win2 w).xblock (grid2.coords t)).Idx) (a : Fin (win2 w).shape.rank) :
    (((win2 w).rect t).emb y a : ℕ) = (if (w = 0 ∨ w = 1 ∨ w = 5) ∧ a.val = 0 then 2000 * t.val else 0) + y a := by
  rw [Window.rect_emb_val, off2]

/-- The block's inputs are the arrays' entries 2000 t rows down (windows 0, 1) or in place (2, 3, 4), so the block is rows 2000 t … of the table. -/
theorem yblk2_apply (c : Dev nD) (t : Fin cfg2.N) (p : Fin 2000) (q : Fin 64) :
    yblk2 V c t (ix2 p q) = Y2 V c (linRow t p) q := by
  have h0 k : iblk2 V c 0 t (ix2 p k) = V c (Pipeline.arrRef spec2 0) (ix2 (linRow t p) k) :=
    congrArg _ (Shape.idx_ext₂ (embv2 0 t _ _) ((embv2 0 t _ _).trans (Nat.zero_add _)))
  have h1 k : iblk2 V c 1 t (ix2 p k) = V c (Pipeline.arrRef spec2 1) (ix2 (linRow t p) k) :=
    congrArg _ (Shape.idx_ext₂ (embv2 1 t _ _) ((embv2 1 t _ _).trans (Nat.zero_add _)))
  have h2 k : iblk2 V c 2 t (ix2 k q) = V c (Pipeline.arrRef spec2 2) (ix2 k q) :=
    congrArg _ (Shape.idx_ext₂ ((embv2 2 t _ _).trans (Nat.zero_add _)) ((embv2 2 t _ _).trans (Nat.zero_add _)))
  have h3 k : iblk2 V c 3 t (ix2 k q) = V c (Pipeline.arrRef spec2 3) (ix2 k q) :=
    congrArg _ (Shape.idx_ext₂ ((embv2 3 t _ _).trans (Nat.zero_add _)) ((embv2 3 t _ _).trans (Nat.zero_add _)))
  have h4 : iblk2 V c 4 t (ix2 (0 : Fin 1) q) = V c (Pipeline.arrRef spec2 4) (ix2 (0 : Fin 1) q) :=
    congrArg _ (Shape.idx_ext₂ ((embv2 4 t _ _).trans (Nat.zero_add _)) ((embv2 4 t _ _).trans (Nat.zero_add _)))
  unfold yblk2
  rw [k2_pay4_apply]
  simp only [h0, h1, h2, h3, h4]
  rfl

/-- The 50 blocks of y tile the first output array, so it ends as the whole table. -/
theorem final2_5 (c : Dev nD) : (dat2 (F := Ideal) V c).arrAt 5 cfg2.N = unc (Y2 V c) := by
  have e5 (t : Fin cfg2.N) (p : Fin 2000) (q : Fin 64) : ((cfg2.win 5).blk t).view.emb (ix2 p q) = ix2 (linRow t p) q :=
    Shape.idx_ext₂ (embv2 5 t _ _) ((embv2 5 t _ _).trans (Nat.zero_add _))
  refine (dat2 V c).arrAt_eq_of_cover 5 _ (fun t _ => funext fun j => ?_) fun i => ?_
  · obtain ⟨p, q, rfl⟩ : ∃ (p : Fin 2000) (q : Fin 64), j = ix2 p q := ⟨j 0, j 1, eq_ix2 j⟩
    exact (yblk2_apply V c t p q).trans (congrArg (unc (Y2 V c)) (e5 t p q)).symm
  · have hi : (i 0).val < 100000 := (i 0).isLt
    have ht : (i 0).val / 2000 < cfg2.N := by show _ < 50; omega
    refine ⟨⟨_, ht⟩, flush2_5 _, ?_⟩
    exact Finset.mem_map.mpr ⟨ix2 ⟨(i 0).val % 2000, Nat.mod_lt _ (by norm_num)⟩ (i 1), Finset.mem_univ _,
      (e5 ⟨_, ht⟩ _ _).trans (Shape.idx_ext₂ (Nat.div_add_mod _ 2000) rfl)⟩

/-- After point n the carried rows hold the column sums of y and of y² over the blocks 0 … n. -/
theorem accAt2_apply (c : Dev nD) (q : Fin 64) : ∀ (n : ℕ) (h : n < cfg2.N),
    (accAt2 V c n h).1 (ix2 (0 : Fin 1) q) = ∑ t ∈ Finset.range (n + 1), linBlkSum (fun r => Y2 V c r q) t
    ∧ (accAt2 V c n h).2 (ix2 (0 : Fin 1) q) = ∑ t ∈ Finset.range (n + 1), linBlkSum (fun r => Y2 V c r q * Y2 V c r q) t := by
  have step (n : ℕ) (h : n < cfg2.N) (s s' : Vec Ideal S1x64 .f32) :
      k2_pay5 (F := Ideal) (iblk2 V c 0 ⟨n, h⟩) (iblk2 V c 1 ⟨n, h⟩) (iblk2 V c 2 ⟨n, h⟩) (iblk2 V c 3 ⟨n, h⟩) (iblk2 V c 4 ⟨n, h⟩) s (ix2 (0 : Fin 1) q)
        = s (ix2 (0 : Fin 1) q) + linBlkSum (fun r => Y2 V c r q) n
      ∧ k2_pay1 (F := Ideal) s' (k2_pay6 (F := Ideal) (iblk2 V c 0 ⟨n, h⟩) (iblk2 V c 1 ⟨n, h⟩) (iblk2 V c 2 ⟨n, h⟩) (iblk2 V c 3 ⟨n, h⟩) (iblk2 V c 4 ⟨n, h⟩)) (ix2 (0 : Fin 1) q)
        = s' (ix2 (0 : Fin 1) q) + linBlkSum (fun r => Y2 V c r q * Y2 V c r q) n := by
    have hy p := yblk2_apply V c ⟨n, h⟩ p q
    unfold yblk2 at hy
    rw [k2_pay5_apply, k2_pay1_apply, linBlkSum, linBlkSum, dif_pos (show n < 50 from h), dif_pos (show n < 50 from h)]
    simp only [hy]
    exact ⟨rfl, rfl⟩
  intro n
  induction n with
  | zero =>
    intro h
    have e := step 0 h (k2_pay2 (F := Ideal)) (k2_pay3 (F := Ideal))
    rw [(k2_pay23_apply _).1, (k2_pay23_apply _).2, zero_add, zero_add] at e
    rwa [Finset.sum_range_one, Finset.sum_range_one]
  | succ n ih =>
    intro h
    have e := step (n + 1) h (accAt2 V c n (Nat.lt_of_succ_lt h)).1 (accAt2 V c n (Nat.lt_of_succ_lt h)).2
    rw [(ih _).1, (ih _).2] at e
    rwa [Finset.sum_range_succ _ (n + 1), Finset.sum_range_succ _ (n + 1)]

/-- After the call each statistics array holds its carried row as it stands after the last point. -/
theorem arr2_6 (c : Dev nD) : (dat2 (F := Ideal) V c).arrAt 6 cfg2.N = (accAt2 V c 49 (by decide)).1 := by
  have e6 (t : Fin cfg2.N) (j : S1x64.Idx) : ((cfg2.win 6).blk t).view.emb j = j :=
    Shape.idx_ext₂ ((embv2 6 t _ _).trans (Nat.zero_add _)) ((embv2 6 t _ _).trans (Nat.zero_add _))
  refine (dat2 V c).arrAt_eq_of_cover 6 _ (fun t hf => ?_) fun i => ⟨⟨49, by decide⟩, (flush2_6 _).mpr rfl, ?_⟩
  · obtain ⟨n, hn⟩ := t
    obtain rfl : n = 49 := by have : n % 50 = 49 := (flush2_6 _).mp hf; have : n < 50 := hn; omega
    funext j
    show (accAt2 V c 49 _).1 j = (accAt2 V c 49 _).1 (((cfg2.win 6).blk _).view.emb j)
    rw [e6]
  · exact Finset.mem_map.mpr ⟨i, Finset.mem_univ _, e6 _ i⟩
theorem arr2_7 (c : Dev nD) : (dat2 (F := Ideal) V c).arrAt 7 cfg2.N = (accAt2 V c 49 (by decide)).2 := by
  have e7 (t : Fin cfg2.N) (j : S1x64.Idx) : ((cfg2.win 7).blk t).view.emb j = j :=
    Shape.idx_ext₂ ((embv2 7 t _ _).trans (Nat.zero_add _)) ((embv2 7 t _ _).trans (Nat.zero_add _))
  refine (dat2 V c).arrAt_eq_of_cover 7 _ (fun t hf => ?_) fun i => ⟨⟨49, by decide⟩, (flush2_7 _).mpr rfl, ?_⟩
  · obtain ⟨n, hn⟩ := t
    obtain rfl : n = 49 := by have : n % 50 = 49 := (flush2_7 _).mp hf; have : n < 50 := hn; omega
    funext j
    show (accAt2 V c 49 _).2 j = (accAt2 V c 49 _).2 (((cfg2.win 7).blk _).view.emb j)
    rw [e7]
  · exact Finset.mem_map.mpr ⟨i, Finset.mem_univ _, e7 _ i⟩

/-- So the second output array is y's column sums over all rows: the 50 blocks' sums added up. -/
theorem final2_6 (c : Dev nD) (j : Fin 64) :
    (dat2 (F := Ideal) V c).arrAt 6 cfg2.N (ix2 (0 : Fin 1) j) = Cert.Spec.colSum (Y2 V c) j := by
  rw [arr2_6, (accAt2_apply V c j 49 _).1]
  exact (lin_sum_rows _).symm

/-- Likewise the third is the column sums of y². -/
theorem final2_7 (c : Dev nD) (j : Fin 64) :
    (dat2 (F := Ideal) V c).arrAt 7 cfg2.N (ix2 (0 : Fin 1) j) = Cert.Spec.colSumSq (Y2 V c) j := by
  rw [arr2_7, (accAt2_apply V c j 49 _).2]
  exact (lin_sum_rows _).symm

end Arrays

end Cert.KernelIdeal.Hand

end
-- ==== Proof.KI.Bn3Value.lean ====
import proofs.«422895_j12790412608056_1_alg».proof.Proof.KI.Bn3
import proofs.«422895_j12790412608056_1_alg».proof.Proof.KI.BnValueCommon

noncomputable section

namespace Cert.KernelIdeal.Hand

open Idealize.ShloMosaic Idealize.ShloMosaic.TcCoe Idealize.ShloMosaic.ValueIdx
open Cert.KernelIdeal Cert.KernelIdeal.Gen

theorem bnpay3_apply (x0 : Vec Ideal S2000x64 .f32) (x1 x2 x3 x4 : Vec Ideal S1x64 .f32) (p : Fin 2000) (q : Fin 64) :
    k3_pay1 (F := Ideal) x0 x1 x2 x3 x4 (ix2 p q)
      = leaky (x0 (ix2 p q)) (x1 (ix2 (0 : Fin 1) q)) (x2 (ix2 (0 : Fin 1) q)) (x3 (ix2 (0 : Fin 1) q)) (x4 (ix2 (0 : Fin 1) q)) := by
  unfold k3_pay1
  simp only [shapeCast_self]
  rw [select_apply, cmpf_apply, select_gt]
  simp only [mulf_apply, addf_apply, subf_apply, broadcast_apply, spread_row]
  simp only [Ideal.ofBits_def, Ideal.ofBits_zero_f32]
  rfl

theorem block_index3 : ∀ t : Fin cfg3.N,
    win3_0.index t (0 : Fin 2) = t.val ∧ win3_0.index t (1 : Fin 2) = 0
    ∧ win3_5.index t (0 : Fin 2) = t.val ∧ win3_5.index t (1 : Fin 2) = 0 :=
  (by decide +kernel : ∀ t : Fin grid3.N, _)

def rowOf3 (t : Fin cfg3.N) (p : Fin 2000) : Fin 100000 :=
  ⟨t.val * 2000 + p.val, by have h : t.val < 50 := Nat.lt_of_lt_of_eq t.isLt N_3; omega⟩

-- Block t of either table window is rows 2000·t … 2000·t + 1999; the four rows' blocks are the rows.
theorem emb3_5 (t : Fin cfg3.N) (p : Fin 2000) (q : Fin 64) :
    ((cfg3.win 5).blk t).view.emb (ix2 p q) = ix2 (n0 := 100000) (n1 := 64) (rowOf3 t p) q :=
  funext fun a => Fin.ext (by
    have h := block_index3 t
    match a with
    | ⟨0, _⟩ => show win3_5.index t (0 : Fin 2) * 2000 + 1 * p.val = t.val * 2000 + p.val; omega
    | ⟨1, _⟩ => show win3_5.index t (1 : Fin 2) * 64 + 1 * q.val = q.val; omega)

theorem emb3_0 (t : Fin cfg3.N) (p : Fin 2000) (q : Fin 64) :
    ((cfg3.win 0).blk t).view.emb (ix2 p q) = ix2 (n0 := 100000) (n1 := 64) (rowOf3 t p) q :=
  funext fun a => Fin.ext (by
    have h := block_index3 t
    match a with
    | ⟨0, _⟩ => show win3_0.index t (0 : Fin 2) * 2000 + 1 * p.val = t.val * 2000 + p.val; omega
    | ⟨1, _⟩ => show win3_0.index t (1 : Fin 2) * 64 + 1 * q.val = q.val; omega)

theorem emb3_1 (t : Fin cfg3.N) (q : Fin 64) :
    ((cfg3.win 1).blk t).view.emb (ix2 (0 : Fin 1) q) = ix2 (n0 := 1) (n1 := 64) (0 : Fin 1) q :=
  funext fun a => Fin.ext (win3_1.rect_emb_val_of_index_zero t a (match a with | ⟨0, _⟩ => rfl | ⟨1, _⟩ => rfl) _)

theorem emb3_2 (t : Fin cfg3.N) (q : Fin 64) :
    ((cfg3.win 2).blk t).view.emb (ix2 (0 : Fin 1) q) = ix2 (n0 := 1) (n1 := 64) (0 : Fin 1) q :=
  funext fun a => Fin.ext (win3_2.rect_emb_val_of_index_zero t a (match a with | ⟨0, _⟩ => rfl | ⟨1, _⟩ => rfl) _)

theorem emb3_3 (t : Fin cfg3.N) (q : Fin 64) :
    ((cfg3.win 3).blk t).view.emb (ix2 (0 : Fin 1) q) = ix2 (n0 := 1) (n1 := 64) (0 : Fin 1) q :=
  funext fun a => Fin.ext (win3_3.rect_emb_val_of_index_zero t a (match a with | ⟨0, _⟩ => rfl | ⟨1, _⟩ => rfl) _)

theorem emb3_4 (t : Fin cfg3.N) (q : Fin 64) :
    ((cfg3.win 4).blk t).view.emb (ix2 (0 : Fin 1) q) = ix2 (n0 := 1) (n1 := 64) (0 : Fin 1) q :=
  funext fun a => Fin.ext (win3_4.rect_emb_val_of_index_zero t a (match a with | ⟨0, _⟩ => rfl | ⟨1, _⟩ => rfl) _)

section Region
variable (V : (c : Dev nD) → (b : Ref sig .tc) → Buf (Elt Ideal) ((c : Thread nD τ).loc b))

theorem iblk3_0_apply (c : Dev nD) (t : Fin cfg3.N) (p : Fin 2000) (q : Fin 64) :
    iblk3 V c 0 t (ix2 p q) = V c (Pipeline.arrRef spec3 0) (ix2 (n0 := 100000) (n1 := 64) (rowOf3 t p) q) :=
  congrArg (V c (Pipeline.arrRef spec3 0)) (emb3_0 t p q)

theorem iblk3_1_apply (c : Dev nD) (t : Fin cfg3.N) (q : Fin 64) :
    iblk3 V c 1 t (ix2 (0 : Fin 1) q) = V c (Pipeline.arrRef spec3 1) (ix2 (n0 := 1) (n1 := 64) (0 : Fin 1) q) :=
  congrArg (V c (Pipeline.arrRef spec3 1)) (emb3_1 t q)

theorem iblk3_2_apply (c : Dev nD) (t : Fin cfg3.N) (q : Fin 64) :
    iblk3 V c 2 t (ix2 (0 : Fin 1) q) = V c (Pipeline.arrRef spec3 2) (ix2 (n0 := 1) (n1 := 64) (0 : Fin 1) q) :=
  congrArg (V c (Pipeline.arrRef spec3 2)) (emb3_2 t q)

theorem iblk3_3_apply (c : Dev nD) (t : Fin cfg3.N) (q : Fin 64) :
    iblk3 V c 3 t (ix2 (0 : Fin 1) q) = V c (Pipeline.arrRef spec3 3) (ix2 (n0 := 1) (n1 := 64) (0 : Fin 1) q) :=
  congrArg (V c (Pipeline.arrRef spec3 3)) (emb3_3 t q)

theorem iblk3_4_apply (c : Dev nD) (t : Fin cfg3.N) (q : Fin 64) :
    iblk3 V c 4 t (ix2 (0 : Fin 1) q) = V c (Pipeline.arrRef spec3 4) (ix2 (n0 := 1) (n1 := 64) (0 : Fin 1) q) :=
  congrArg (V c (Pipeline.arrRef spec3 4)) (emb3_4 t q)

theorem flushed3_5_apply (c : Dev nD) (t : Fin cfg3.N) (p : Fin 2000) (q : Fin 64) :
    (dat3 (F := Ideal) V c).flushed 5 t (ix2 p q)
      = k3_pay1 (F := Ideal) (iblk3 V c 0 t) (iblk3 V c 1 t) (iblk3 V c 2 t) (iblk3 V c 3 t) (iblk3 V c 4 t) (ix2 p q) := by
  show (cfg3.win 5).cut (grid3.coords t) ((dat3 V c).after 5 t) (ix2 p q) = _
  rw [after3_5]
  unfold out3_5
  rw [View.canon_unit_zero zero_offsets]
  rfl

theorem blk_tab3 (a0 : S100000x64.Idx → EReal) (a1 a2 a3 a4 : S1x64.Idx → EReal) (t : Fin cfg3.N) (p : Fin 2000) (q : Fin 64) :
    ((cfg3.win 5).blk t).view.read (Elt Ideal) (bnTab a0 a1 a2 a3 a4) (ix2 p q)
      = leaky (a0 (ix2 (rowOf3 t p) q)) (a1 (ix2 (0 : Fin 1) q)) (a2 (ix2 (0 : Fin 1) q)) (a3 (ix2 (0 : Fin 1) q)) (a4 (ix2 (0 : Fin 1) q)) := by
  show bnTab a0 a1 a2 a3 a4 (((cfg3.win 5).blk t).view.emb (ix2 p q)) = _
  rw [emb3_5]; rfl

-- Point t's output block is block t of the table: entry by entry the payload reads the inputs at the entry's row and column.
theorem flushed3_5 (c : Dev nD) (t : Fin cfg3.N) :
    (dat3 (F := Ideal) V c).flushed 5 t = ((cfg3.win 5).blk t).view.read (Elt Ideal)
      (bnTab (V c (Pipeline.arrRef spec3 0)) (V c (Pipeline.arrRef spec3 1)) (V c (Pipeline.arrRef spec3 2))
        (V c (Pipeline.arrRef spec3 3)) (V c (Pipeline.arrRef spec3 4))) := by
  funext j
  obtain ⟨p, q, rfl⟩ : ∃ (p : Fin 2000) (q : Fin 64), j = ix2 p q := ⟨j 0, j 1, eq_ix2 j⟩
  rw [flushed3_5_apply, blk_tab3, bnpay3_apply]
  exact congr (congr (congr (congr (congrArg leaky (iblk3_0_apply V c t p q)) (iblk3_1_apply V c t q)) (iblk3_2_apply V c t q))
    (iblk3_3_apply V c t q)) (iblk3_4_apply V c t q)

-- Row r lies in the block of point r / 2000.
theorem rows_covered3_5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, by rw [show cfg3.N = 50 from N_3]; omega⟩, rfl⟩
  have h := block_index3 t
  refine ⟨t, flush3_5 t, ?_⟩
  show i ∈ ((View.whole (Pipeline.arrRef spec3 5)).slice (win3_5.rect t)).set
  rw [View.set_slice_whole, Rect.mem_set_unit]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

theorem final3_5 (c : Dev nD) :
    (dat3 (F := Ideal) V c).arrAt 5 cfg3.N
      = Cert.Agg.unc (Cert.Spec.bnK (Cert.Agg.cur (V c (Pipeline.arrRef spec3 0)))
          (Cert.Agg.curRow (V c (Pipeline.arrRef spec3 1))) (Cert.Agg.curRow (V c (Pipeline.arrRef spec3 2)))
          (Cert.Agg.curRow (V c (Pipeline.arrRef spec3 3))) (Cert.Agg.curRow (V c (Pipeline.arrRef spec3 4)))) :=
  (dat3 (F := Ideal) V c).arrAt_eq_of_cover 5 (bnTab _ _ _ _ _) (fun t _ => flushed3_5 V c t) rows_covered3_5

end Region

end Cert.KernelIdeal.Hand

end
-- ==== Proof.KI.HostStats.lean ====
import proofs.«422895_j12790412608056_1_alg».proof.Proof.Gen.KernelIdeal.Regions
import Idealize.ShloMosaic.Lib.StableHlo.Run
import Idealize.ShloMosaic.PureOps.Ideal

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ) (c : Dev nD) (outs : Outs (F := Ideal))

/-- The row count laid along a row of 64. -/
abbrev nRow : FVec Ideal S1x64 .f32 := broadcastInDim S1x64 ![] bcast_S_S1x64 (constant (F := Ideal) S_ .f32 0x47C35000#32)

/-- What each layer's linear map takes beside the two tables of rows: its two weight tables transposed, its bias as one row. -/
theorem K1 : V3 m c main_v17 = transpose S64x64 [1, 0] (V2 m c main_arg2) transposes_S64x64_S64x64_1_0
    ∧ V3 m c main_v18 = transpose S64x64 [1, 0] (V2 m c main_arg3) transposes_S64x64_S64x64_1_0
    ∧ V3 m c main_v19 = shapeCast S1x64 (V2 m c main_arg4) shapeCasts_S64_S1x64 := by
  dsimp only [V3, hostOps0_2]
  refine ⟨?_, ?_, ?_⟩ <;> (after_results_simp <;> rfl)
theorem K3 : V8 m outs c main_v39 = transpose S64x64 [1, 0] (V7 m outs c main_arg7) transposes_S64x64_S64x64_1_0
    ∧ V8 m outs c main_v40 = transpose S64x64 [1, 0] (V7 m outs c main_arg8) transposes_S64x64_S64x64_1_0
    ∧ V8 m outs c main_v41 = shapeCast S1x64 (V7 m outs c main_arg9) shapeCasts_S64_S1x64 := by
  dsimp only [V8, hostOps2_1]
  refine ⟨?_, ?_, ?_⟩ <;> (after_results_simp <;> rfl)

/-- What each layer's normalisation takes beside y: mean = s / n and variance = ss / n − mean·mean from the two rows of
    column sums, and its scale and shift as one row each. -/
theorem K2 : V5 m outs c main_v22 = Host.divf (V4 m outs c main_v20_1) nRow
    ∧ V5 m outs c main_v26 = subf (Host.divf (V4 m outs c main_v20_2) nRow)
        (mulf (Host.divf (V4 m outs c main_v20_1) nRow) (Host.divf (V4 m outs c main_v20_1) nRow))
    ∧ V5 m outs c main_v27 = shapeCast S1x64 (V4 m outs c main_arg5) shapeCasts_S64_S1x64
    ∧ V5 m outs c main_v28 = shapeCast S1x64 (V4 m outs c main_arg6) shapeCasts_S64_S1x64 := by
  dsimp only [V5, hostOps1]
  refine ⟨?_, ?_, ?_, ?_⟩ <;> (after_results_simp <;> rfl)
theorem K4 : V10 m outs c main_v44 = Host.divf (V9 m outs c main_v42_1) nRow
    ∧ V10 m outs c main_v48 = subf (Host.divf (V9 m outs c main_v42_2) nRow)
        (mulf (Host.divf (V9 m outs c main_v42_1) nRow) (Host.divf (V9 m outs c main_v42_1) nRow))
    ∧ V10 m outs c main_v49 = shapeCast S1x64 (V9 m outs c main_arg10) shapeCasts_S64_S1x64
    ∧ V10 m outs c main_v50 = shapeCast S1x64 (V9 m outs c main_arg11) shapeCasts_S64_S1x64 := by
  dsimp only [V10, hostOps3]
  refine ⟨?_, ?_, ?_, ?_⟩ <;> (after_results_simp <;> rfl)

end Cert.KernelIdeal.Hand

end
-- ==== Proof.KI.Host.lean ====
import proofs.«422895_j12790412608056_1_alg».proof.Proof.Gen.KernelIdeal.Regions
import proofs.«422895_j12790412608056_1_alg».proof.Proof.Agg
import Idealize.ShloMosaic.Lib.Affine

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

/-- A negative index has the row count added; the result as a column. -/
def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The test 0 ≤ i ≤ 99999 on each wrapped index. -/
def inRange (W : IVec S1600000x1 32) : IVec S1600000 1 :=
  Host.reduce IntOp.andi
    (andi (cmpi .sge W (broadcastInDim S1600000x1 ![] bcast_S_S1600000x1 (constantI S_ 32 0#32)))
      (cmpi .sle W (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Rows gathered at the wrapped indices, replaced by the fill value where the test fails. -/
def takeRows (x : FVec Ideal S100000x64 .f32) (s : IVec S1600000 32) : FVec Ideal S1600000x64 .f32 :=
  select (broadcastInDim S1600000x64 ![0] bcast_S1600000_S1600000x64_0 (inRange (wrapIdx s)))
    (Host.gather gather_S100000x64_S1600000x1_S1600000x64_1_0_n_n_0_1_164 x (wrapIdx s))
    (broadcastInDim S1600000x64 ![] bcast_S_S1600000x64 (constant (F := Ideal) S_ .f32 0x7FC00000#32))

theorem foldl_andi_one {ι : Type} (f : ι → BitVec 1) (hf : ∀ n, f n = 1#1) :
    ∀ l : List ι, l.foldl (fun r n => IntOp.andi r (f n)) 1#1 = 1#1
  | [] => rfl
  | a :: l => by rw [List.foldl_cons, hf a]; exact foldl_andi_one f hf l

/-- A row number is not negative, so the wrap returns it: what holds of every index number holds of every wrapped one. -/
theorem wrapIdx_prop (s : IVec S1600000 32) (hr : ∀ e, 0 ≤ (s e).toInt ∧ (s e).toInt < 100000)
    (P : BitVec 32 → Prop) (hP : ∀ e, P (s e)) (j : S1600000x1.Idx) : P (wrapIdx s j) := by
  have hn : ∀ k, ¬ (cmpi .slt s (broadcastInDim S1600000 ![] bcast_S_S1600000 (constantI S_ 32 0#32)) k = 1) := fun k h => by
    have h' : (s k).toInt < (0#32 : BitVec 32).toInt := IntOp.cmpi_slt.mp h
    rw [show (0#32 : BitVec 32).toInt = 0 by decide] at h'
    exact absurd h' (not_lt.mpr (hr k).1)
  show P (Scalar.select (cmpi .slt s (broadcastInDim S1600000 ![] bcast_S_S1600000 (constantI S_ 32 0#32)) _) _ (s _))
  rw [Scalar.select, if_neg (hn _)]
  exact hP _

/-- If every index is already a row number, the test passes at every index, -/
theorem inRange_one (s : IVec S1600000 32) (hr : ∀ e, 0 ≤ (s e).toInt ∧ (s e).toInt < 100000)
    (k : S1600000.Idx) : inRange (wrapIdx s) k = 1#1 := by
  unfold inRange Host.reduce
  refine foldl_andi_one _ (fun n => ?_) _
  show IntOp.andi (IntOp.cmpi .sge (wrapIdx s (S1600000x1.rowMajor.symm n)) 0#32)
    (IntOp.cmpi .sle (wrapIdx s (S1600000x1.rowMajor.symm n)) 99999#32) = 1#1
  refine wrapIdx_prop s hr (fun v => IntOp.andi (IntOp.cmpi .sge v 0#32) (IntOp.cmpi .sle v 99999#32) = 1#1)
    (fun e => ?_) _
  rw [IntOp.andi_eq_one, IntOp.cmpi_sge, IntOp.cmpi_sle]
  exact ⟨(hr e).1, Int.lt_add_one_iff.mp (hr e).2⟩

/-- and then the lookup is the plain gather. -/
theorem takeRows_eq (x : FVec Ideal S100000x64 .f32) (s : IVec S1600000 32)
    (hr : ∀ e, 0 ≤ (s e).toInt ∧ (s e).toInt < 100000) :
    takeRows x s = Host.gather Cert.Agg.rowGather x (Cert.Agg.wrapCol s) := by
  funext i
  unfold takeRows select
  dsimp only
  rw [show broadcastInDim S1600000x64 ![0] bcast_S1600000_S1600000x64_0 (inRange (wrapIdx s)) i = 1#1 from inRange_one s hr _,
    Scalar.select, if_pos (by decide)]
  rfl

abbrev a0 (c : Dev nD) : FVec Ideal S100000x64 .f32 := m ((c : Thread nD τ).loc main_arg0)
abbrev a1 (c : Dev nD) : IVec S2x1600000 32 := m ((c : Thread nD τ).loc main_arg1)
abbrev src (c : Dev nD) : IVec S1600000 32 := Cert.Agg.srcRow (a1 m c)
abbrev dst (c : Dev nD) : IVec S1600000 32 := Cert.Agg.dstRow (a1 m c)

/-- What no item after the first stretch writes is, before every later call, as the first stretch left it. -/
theorem keep (c : Dev nD) (outs : Outs (F := Ideal)) (r : Ref sig .tc)
    (h : r ∉ hostOps0_1_W ++ hostOps0_2_W ++ [main_v20_0, main_v20_1, main_v20_2] ++ hostOps1_W ++ [main_v29] ++ hostOps2_W
      ++ hostOps2_1_W ++ [main_v42_0, main_v42_1, main_v42_2]) :
    V2 m c r = V1 m c r ∧ V3 m c r = V1 m c r ∧ V4 m outs c r = V1 m c r ∧ V6 m outs c r = V1 m c r
    ∧ V7 m outs c r = V1 m c r ∧ V9 m outs c r = V1 m c r := by
  simp only [List.mem_append, not_or] at h
  obtain ⟨⟨⟨⟨⟨⟨⟨h1, h2⟩, h4⟩, h5⟩, h6⟩, h7⟩, h8⟩, h9⟩ := h
  have e2 := V2_of m c r h1
  have e3 := (V3_of m c r h2).trans e2
  have e4 := (V4_of m outs c r h4).trans e3
  have e6 := (V6_of m outs c r h6).trans ((V5_of m outs c r h5).trans e4)
  have e7 := (V7_of m outs c r h7).trans e6
  exact ⟨e2, e3, e4, e6, e7, (V9_of m outs c r h9).trans ((V8_of m outs c r h8).trans e7)⟩

/-- So a launch argument, which no item writes, is there as launched. -/
theorem keepA (c : Dev nD) (outs : Outs (F := Ideal)) (r : Ref sig .tc) (h0 : r ∉ hostOps0_W)
    (h : r ∉ hostOps0_1_W ++ hostOps0_2_W ++ [main_v20_0, main_v20_1, main_v20_2] ++ hostOps1_W ++ [main_v29] ++ hostOps2_W
      ++ hostOps2_1_W ++ [main_v42_0, main_v42_1, main_v42_2]) :
    V2 m c r = m ((c : Thread nD τ).loc r) ∧ V3 m c r = m ((c : Thread nD τ).loc r) ∧ V4 m outs c r = m ((c : Thread nD τ).loc r)
    ∧ V7 m outs c r = m ((c : Thread nD τ).loc r) ∧ V9 m outs c r = m ((c : Thread nD τ).loc r) := by
  have e : V1 m c r = m ((c : Thread nD τ).loc r) := V1_of m c r h0
  obtain ⟨e2, e3, e4, -, e7, e9⟩ := keep m c outs r h
  exact ⟨e2.trans e, e3.trans e, e4.trans e, e7.trans e, e9.trans e⟩

/-- The first stretch leaves the two index rows and the in-degrees. -/
theorem V1_rows (c : Dev nD) :
    V1 m c main_v1 = src m c ∧ V1 m c main_v3 = dst m c ∧ V1 m c main_v7 = Cert.Agg.degree (F := Ideal) (dst m c) := by
  dsimp only [V1, V0]
  refine ⟨?_, ?_, ?_⟩ <;> (after_results; all_goals rfl)

theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons a l ih => simp only [List.cons_append, StableHlo.after_cons, ih]

/-- The first eighteen operations of a lookup compute the wrapped indices and the range test and leave the table alone; -/
theorem look_idx (W : Valuation τ sig (Elt Ideal)) :
    (StableHlo.after (hostOps0_1.take 18) W main_call0_v5 = wrapIdx (W main_v1)
      ∧ StableHlo.after (hostOps2.take 18) W main_call1_v5 = wrapIdx (W main_v1))
    ∧ (StableHlo.after (hostOps0_1.take 18) W main_call0_v12 = inRange (wrapIdx (W main_v1))
      ∧ StableHlo.after (hostOps2.take 18) W main_call1_v12 = inRange (wrapIdx (W main_v1)))
    ∧ StableHlo.after (hostOps0_1.take 18) W main_arg0 = W main_arg0
    ∧ StableHlo.after (hostOps2.take 18) W main_v29 = W main_v29 := by
  simp only [hostOps0_1, hostOps2, List.take_succ_cons, List.take_zero]
  refine ⟨⟨?_, ?_⟩, ⟨?_, ?_⟩, ?_, ?_⟩ <;> after_results_simp <;>
    (simp only [StableHlo.TRef.ofBuf, StableHlo.TRef.toBuf, cast_eq]; unfold wrapIdx; try unfold inRange
     rfl)

/-- the other three gather and choose. -/
theorem look_tail (X : Valuation τ sig (Elt Ideal)) :
    StableHlo.after (hostOps0_1.drop 18) X main_v8
      = select (broadcastInDim S1600000x64 ![0] bcast_S1600000_S1600000x64_0 (X main_call0_v12))
          (Host.gather gather_S100000x64_S1600000x1_S1600000x64_1_0_n_n_0_1_164 (X main_arg0) (X main_call0_v5))
          (broadcastInDim S1600000x64 ![] bcast_S_S1600000x64 (constant (F := Ideal) S_ .f32 0x7FC00000#32))
    ∧ StableHlo.after (hostOps2.drop 18) X main_v30
      = select (broadcastInDim S1600000x64 ![0] bcast_S1600000_S1600000x64_0 (X main_call1_v12))
          (Host.gather gather_S100000x64_S1600000x1_S1600000x64_1_0_n_n_0_1_164 (X main_v29) (X main_call1_v5))
          (broadcastInDim S1600000x64 ![] bcast_S_S1600000x64 (constant (F := Ideal) S_ .f32 0x7FC00000#32)) := by
  simp only [hostOps0_1, hostOps2, List.drop_succ_cons, List.drop_zero]
  constructor <;> after_results_simp <;> simp only [StableHlo.TRef.ofBuf, StableHlo.TRef.toBuf, cast_eq]

/-- Together: a lookup stretch computes takeRows of its table at the source numbers. -/
theorem look (W : Valuation τ sig (Elt Ideal)) :
    StableHlo.after hostOps0_1 W main_v8 = takeRows (W main_arg0) (W main_v1)
    ∧ StableHlo.after hostOps2 W main_v30 = takeRows (W main_v29) (W main_v1) := by
  obtain ⟨⟨a5, b5⟩, ⟨a12, b12⟩, a0, b0⟩ := look_idx W
  constructor
  · rw [← List.take_append_drop 18 hostOps0_1, after_append, (look_tail _).1, a12, a0, a5]; rfl
  · rw [← List.take_append_drop 18 hostOps2, after_append, (look_tail _).2, b12, b0, b5]; rfl

/-- Rows added up by destination node and divided by max(degree, 1). -/
def meanOf (g : FVec Ideal S1600000x64 .f32) (d : IVec S1600000 32) (deg : FVec Ideal S100000 .f32) :
    FVec Ideal S100000x64 .f32 :=
  Host.divf
    (Host.scatterAdd Cert.Agg.rowScatter
      (broadcastInDim S100000x64 ![] bcast_S_S100000x64 (constant (F := Ideal) S_ .f32 0x00000000#32)) (Cert.Agg.col d) g)
    (broadcastInDim S100000x64 ![0, 1] bcast_S100000x1_S100000x64_0_1
      (broadcastInDim S100000x1 ![0] bcast_S100000_S100000x1_0
        (maximumf deg (broadcastInDim S100000 ![] bcast_S_S100000 (constant (F := Ideal) S_ .f32 0x3F800000#32)))))

theorem V3_v16 (c : Dev nD) : V3 m c main_v16 = meanOf (V2 m c main_v8) (V2 m c main_v3) (V2 m c main_v7) := by
  dsimp only [V3]
  generalize V2 m c = W
  after_results
  all_goals (unfold meanOf; rfl)
theorem V8_v38 (c : Dev nD) (outs : Outs (F := Ideal)) :
    V8 m outs c main_v38 = meanOf (V7 m outs c main_v30) (V7 m outs c main_v3) (V7 m outs c main_v7) := by
  dsimp only [V8]
  generalize V7 m outs c = W
  after_results
  all_goals (unfold meanOf; rfl)

/-- The first call's neighbour-mean input is the neighbour mean of the features, when every source number is a node number. -/
theorem K1_v16 (c : Dev nD) (hr : ∀ e, 0 ≤ (src m c e).toInt ∧ (src m c e).toInt < 100000) :
    V3 m c main_v16 = Cert.Agg.msgMean (F := Ideal) (a0 m c) (src m c) (dst m c) := by
  obtain ⟨e1, e3, e7⟩ := V1_rows m c
  rw [V3_v16, show V2 m c main_v8 = _ from (look _).1, V2_of m c main_v3 (by decide), V2_of m c main_v7 (by decide),
    V1_of m c main_arg0 (by decide), e1, e3, e7, takeRows_eq _ _ hr]
  rfl

/-- The third call's neighbour-mean input is the neighbour mean of the first layer's output, likewise. -/
theorem K3_v38 (c : Dev nD) (outs : Outs (F := Ideal))
    (hr : ∀ e, 0 ≤ (src m c e).toInt ∧ (src m c e).toInt < 100000) :
    V8 m outs c main_v38 = Cert.Agg.msgMean (F := Ideal) (outs 6 main_v29 c) (src m c) (dst m c) := by
  obtain ⟨e1, e3, e7⟩ := V1_rows m c
  obtain ⟨-, -, -, k1, -, -⟩ := keep m c outs main_v1 (by decide)
  obtain ⟨-, -, -, -, k3, -⟩ := keep m c outs main_v3 (by decide)
  obtain ⟨-, -, -, -, k7, -⟩ := keep m c outs main_v7 (by decide)
  rw [V8_v38, show V7 m outs c main_v30 = _ from (look _).2, k1, k3, k7, e1, e3, e7,
    show V6 m outs c main_v29 = outs 6 main_v29 c from Function.update_self .., takeRows_eq _ _ hr]
  rfl

end Cert.KernelIdeal.Hand

end
-- ==== Proof.RefTerm.lean ====
import Idealize.ShloMosaic.PureOps
import Idealize.ShloMosaic.Lib.StackMember
import Idealize.ShloMosaic.PureOps.Ideal
import Idealize.ShloMosaic.PureOps.Ideal.Laws
import Idealize.ShloMosaic.Lib.ValueIdx
import Idealize.ShloMosaic.Lib.Pipeline.Value
import proofs.«422895_j12790412608056_1_alg».proof.Proof.Agg

noncomputable section

namespace Cert.RefTerm

open Idealize.ShloMosaic
open Cert.Agg

abbrev S64x64 : Shape := ⟨2, ![64, 64]⟩
abbrev S64 : Shape := ⟨1, ![64]⟩
abbrev S1x64 : Shape := ⟨2, ![1, 64]⟩
abbrev S2xE : Shape := ⟨2, ![2, 1600000]⟩
abbrev S1xE : Shape := ⟨2, ![1, 1600000]⟩

def dot : DotDims SN64 S64x64 SN64 where
  lhsContracting := [1]
  rhsContracting := [0]
  lhsNonContracting := [0]
  rhsNonContracting := [1]
  lhsBatch := []
  rhsBatch := []
  wf := by decide

def rows (v : FVec Ideal S64 .f32) : FVec Ideal SN64 .f32 :=
  broadcastInDim SN64 ![0, 1] (by decide) (broadcastInDim S1x64 ![1] (by decide) v)

def colTotal (x : FVec Ideal SN64 .f32) : FVec Ideal S64 .f32 :=
  Host.reduceAdd (F := Ideal) x (constant (F := Ideal) S0 .f32 0x00000000#32) (by decide : SN64.ReducesTo [0] S64) (by decide)

def count : FVec Ideal S64 .f32 := broadcastInDim S64 ![] (by decide) (constant (F := Ideal) S0 .f32 0x47C35000#32)

def refLin (h mm : FVec Ideal SN64 .f32) (wsT wnT : FVec Ideal S64x64 .f32) (b : FVec Ideal S64 .f32) :
    FVec Ideal SN64 .f32 :=
  addf (addf (Host.dotGeneral (F := Ideal) dot none h wsT) (Host.dotGeneral (F := Ideal) dot none mm wnT)) (rows b)

def refMean (y : FVec Ideal SN64 .f32) : FVec Ideal S64 .f32 := Host.divf (F := Ideal) (colTotal y) count

def refVar (y : FVec Ideal SN64 .f32) : FVec Ideal S64 .f32 :=
  Host.divf (F := Ideal)
    (colTotal (mulf (subf y (rows (refMean y))) (subf y (rows (refMean y))))) count

def refNorm (y : FVec Ideal SN64 .f32) (g be : FVec Ideal S64 .f32) : FVec Ideal SN64 .f32 :=
  addf (mulf (mulf (subf y (rows (refMean y)))
      (rows (Host.rsqrt (F := Ideal) (addf (refVar y)
        (broadcastInDim S64 ![] (by decide) (constant (F := Ideal) S0 .f32 0x3727C5AC#32))))))
    (rows g)) (rows be)

def leaky (n : FVec Ideal SN64 .f32) : FVec Ideal SN64 .f32 :=
  select (cmpf .oge n (broadcastInDim SN64 ![] (by decide) (constant (F := Ideal) S0 .f32 0x00000000#32))) n
    (mulf (broadcastInDim SN64 ![] (by decide) (constant (F := Ideal) S0 .f32 0x3C23D70A#32)) n)

def refLayer (h mm : FVec Ideal SN64 .f32) (wsT wnT : FVec Ideal S64x64 .f32) (b g be : FVec Ideal S64 .f32) :
    FVec Ideal SN64 .f32 :=
  leaky (refNorm (refLin h mm wsT wnT b) g be)

def srcOf (a1 : IVec S2xE 32) : IVec SE 32 :=
  shapeCast SE (extractStridedSlice S1xE ![0, 0] a1 (by decide)) (by decide)

def dstOf (a1 : IVec S2xE 32) : IVec SE 32 :=
  shapeCast SE (extractStridedSlice S1xE ![1, 0] a1 (by decide)) (by decide)

def tr (w : FVec Ideal S64x64 .f32) : FVec Ideal S64x64 .f32 := transpose S64x64 [1, 0] w (by decide)

def refH1 (a0 : FVec Ideal SN64 .f32) (a1 : IVec S2xE 32) (a2 a3 : FVec Ideal S64x64 .f32) (a4 a5 a6 : FVec Ideal S64 .f32) :
    FVec Ideal SN64 .f32 :=
  refLayer a0 (msgMean (F := Ideal) a0 (srcOf a1) (dstOf a1)) (tr a2) (tr a3) a4 a5 a6

def refTerm (a0 : FVec Ideal SN64 .f32) (a1 : IVec S2xE 32) (a2 a3 : FVec Ideal S64x64 .f32) (a4 a5 a6 : FVec Ideal S64 .f32)
    (a7 a8 : FVec Ideal S64x64 .f32) (a9 a10 a11 : FVec Ideal S64 .f32) : FVec Ideal SN64 .f32 :=
  refLayer (refH1 a0 a1 a2 a3 a4 a5 a6)
    (msgMean (F := Ideal) (refH1 a0 a1 a2 a3 a4 a5 a6) (srcOf a1) (dstOf a1)) (tr a7) (tr a8) a9 a10 a11

open Idealize.ShloMosaic.ValueIdx
open scoped BigOperators

theorem rows_apply (v : FVec Ideal S64 .f32) (r : Fin 100000) (j : Fin 64) : rows v (ix2 r j) = v (ix1 j) := by
  unfold rows
  rw [broadcastInDim_apply ![0, 1] _ _ (ix2 r j) (ix2 (0 : Fin 1) j) (by
        intro a; match a with | ⟨0, _⟩ => rfl | ⟨1, _⟩ => rfl),
      broadcastInDim_apply ![1] _ v (ix2 (0 : Fin 1) j) (ix1 j) (by
        intro a; match a with | ⟨0, _⟩ => rfl)]

theorem dot_apply (x : FVec Ideal SN64 .f32) (w : FVec Ideal S64x64 .f32) (r : Fin 100000) (j : Fin 64) :
    Host.dotGeneral (F := Ideal) dot none x w (ix2 r j) = ∑ k : Fin 64, x (ix2 r k) * w (ix2 k j) :=
  StackMember.dotGeneral_plain_apply (m := 100000) (n := 64) none x w r j

theorem colTotal_apply (x : FVec Ideal SN64 .f32) (j : Fin 64) :
    colTotal x (ix1 j) = 0 + ∑ r : Fin 100000, x (ix2 r j) := by
  unfold colTotal
  show Ideal.hostReduceAdd (by decide : SN64.ReducesTo [0] S64) x
      (constant (F := Ideal) S0 .f32 0x00000000#32 (Shape.Idx.first (by decide))) (ix1 j) = _
  rw [Ideal.hostReduceAdd_single (by decide : SN64.ReducesTo [0] S64) (by decide : SN64.Reduces [0] S64),
    constant_apply, Ideal.ofBits_zero_f32]
  refine congrArg (fun z => (0 : EReal) + z) (Finset.sum_congr rfl fun r _ => congrArg x ?_)
  funext a; apply Fin.ext
  match a with
  | ⟨0, _⟩ => rfl
  | ⟨1, _⟩ => rfl

theorem count_apply (j : Fin 64) : count (ix1 j) = Cert.Spec.nRows := rfl

theorem refLin_apply (h mm : FVec Ideal SN64 .f32) (wsT wnT : FVec Ideal S64x64 .f32) (b : FVec Ideal S64 .f32)
    (r : Fin 100000) (j : Fin 64) :
    refLin h mm wsT wnT b (ix2 r j) = Cert.Spec.lin (cur h) (cur mm) (cur wsT) (cur wnT) (cur1 b) r j := by
  unfold refLin
  rw [addf_apply, addf_apply, dot_apply, dot_apply, rows_apply]
  rfl

theorem refMean_apply (y : FVec Ideal SN64 .f32) (j : Fin 64) : refMean y (ix1 j) = Cert.Spec.meanR (cur y) j := by
  unfold refMean
  show Ideal.div (colTotal y (ix1 j)) (count (ix1 j)) = _
  rw [colTotal_apply, count_apply]
  rfl

theorem refVar_apply (y : FVec Ideal SN64 .f32) (j : Fin 64) : refVar y (ix1 j) = Cert.Spec.varR (cur y) j := by
  unfold refVar
  show Ideal.div (colTotal _ (ix1 j)) (count (ix1 j)) = _
  rw [colTotal_apply, count_apply]
  have hd : ∀ r : Fin 100000,
      mulf (subf y (rows (refMean y))) (subf y (rows (refMean y))) (ix2 r j)
        = (cur y r j - Cert.Spec.meanR (cur y) j) * (cur y r j - Cert.Spec.meanR (cur y) j) := fun r => by
    rw [mulf_apply, subf_apply, rows_apply, refMean_apply]
    rfl
  rw [Finset.sum_congr rfl fun r _ => hd r]
  rfl

theorem refNorm_apply (y : FVec Ideal SN64 .f32) (g be : FVec Ideal S64 .f32) (r : Fin 100000) (j : Fin 64) :
    refNorm y g be (ix2 r j)
      = (cur y r j - Cert.Spec.meanR (cur y) j) * Ideal.rsqrt (Cert.Spec.varR (cur y) j + Cert.Spec.eps) * cur1 g j
        + cur1 be j := by
  unfold refNorm
  rw [addf_apply, mulf_apply, mulf_apply, subf_apply, rows_apply, rows_apply, rows_apply, rows_apply, refMean_apply]
  show (y (ix2 r j) - Cert.Spec.meanR (cur y) j)
      * Ideal.rsqrt (refVar y (ix1 j) + Ideal.ofBits .f32 0x3727C5AC#32) * g (ix1 j) + be (ix1 j) = _
  rw [refVar_apply]
  rfl

theorem leaky_apply (n : FVec Ideal SN64 .f32) (i : SN64.Idx) :
    leaky n i = if 0 ≤ n i then n i else Cert.Spec.slope * n i := by
  unfold leaky
  rw [select_apply, cmpf_apply, mulf_apply]
  show Scalar.select (Ideal.cmp .oge (n i) (Ideal.ofBits .f32 0x00000000#32)) (n i) (Cert.Spec.slope * n i) = _
  rw [Ideal.ofBits_zero_f32]
  unfold Ideal.cmp Scalar.select
  by_cases h : 0 ≤ n i
  · simp [h]
  · simp [h]

theorem refLayer_apply (h mm : FVec Ideal SN64 .f32) (wsT wnT : FVec Ideal S64x64 .f32) (b g be : FVec Ideal S64 .f32)
    (r : Fin 100000) (j : Fin 64) :
    refLayer h mm wsT wnT b g be (ix2 r j)
      = Cert.Spec.layerR (cur h) (cur mm) (cur wsT) (cur wnT) (cur1 b) (cur1 g) (cur1 be) r j := by
  unfold refLayer
  rw [leaky_apply, refNorm_apply]
  have hy : cur (refLin h mm wsT wnT b) = Cert.Spec.lin (cur h) (cur mm) (cur wsT) (cur wnT) (cur1 b) :=
    funext fun r => funext fun j => refLin_apply h mm wsT wnT b r j
  rw [hy]
  rfl

theorem refLayer_eq (h mm : FVec Ideal SN64 .f32) (wsT wnT : FVec Ideal S64x64 .f32) (b g be : FVec Ideal S64 .f32) :
    refLayer h mm wsT wnT b g be
      = unc (Cert.Spec.layerR (cur h) (cur mm) (cur wsT) (cur wnT) (cur1 b) (cur1 g) (cur1 be)) :=
  eq_unc_of_apply _ _ fun r j => refLayer_apply h mm wsT wnT b g be r j

def specH1 (a0 : FVec Ideal SN64 .f32) (a1 : IVec S2xE 32) (a2 a3 : FVec Ideal S64x64 .f32) (a4 a5 a6 : FVec Ideal S64 .f32) :
    Cert.Spec.M 100000 64 :=
  Cert.Spec.layerR (cur a0) (cur (msgMean (F := Ideal) a0 (srcOf a1) (dstOf a1))) (cur (tr a2)) (cur (tr a3))
    (cur1 a4) (cur1 a5) (cur1 a6)

theorem refH1_eq (a0 : FVec Ideal SN64 .f32) (a1 : IVec S2xE 32) (a2 a3 : FVec Ideal S64x64 .f32) (a4 a5 a6 : FVec Ideal S64 .f32) :
    refH1 a0 a1 a2 a3 a4 a5 a6 = unc (specH1 a0 a1 a2 a3 a4 a5 a6) := by
  unfold refH1 specH1
  exact refLayer_eq _ _ _ _ _ _ _

theorem refTerm_eq (a0 : FVec Ideal SN64 .f32) (a1 : IVec S2xE 32) (a2 a3 : FVec Ideal S64x64 .f32) (a4 a5 a6 : FVec Ideal S64 .f32)
    (a7 a8 : FVec Ideal S64x64 .f32) (a9 a10 a11 : FVec Ideal S64 .f32) :
    refTerm a0 a1 a2 a3 a4 a5 a6 a7 a8 a9 a10 a11
      = unc (Cert.Spec.layerR (specH1 a0 a1 a2 a3 a4 a5 a6)
          (cur (msgMean (F := Ideal) (unc (specH1 a0 a1 a2 a3 a4 a5 a6)) (srcOf a1) (dstOf a1)))
          (cur (tr a7)) (cur (tr a8)) (cur1 a9) (cur1 a10) (cur1 a11)) := by
  unfold refTerm
  rw [refH1_eq, refLayer_eq, cur_unc]

end Cert.RefTerm

end
-- ==== Proof.Bridge.lean ====
import Idealize.ShloMosaic.Lib.ValueLayout
import proofs.«422895_j12790412608056_1_alg».proof.Proof.Spec
import proofs.«422895_j12790412608056_1_alg».proof.Proof.Agg
import proofs.«422895_j12790412608056_1_alg».proof.Proof.RefTerm

noncomputable section

namespace Cert.Bridge

open Idealize.ShloMosaic Idealize.ShloMosaic.ValueIdx
open Cert.Agg Cert.RefTerm Cert.Spec

theorem real2_cur {a b : Nat} {f : (⟨2, ![a, b]⟩ : Shape).Idx → EReal} (h : RealArr f) : Real2 (cur f) :=
  fun r j => h (ix2 r j)

theorem real1_cur1 {a : Nat} {f : (⟨1, ![a]⟩ : Shape).Idx → EReal} (h : RealArr f) : Real1 (cur1 f) :=
  fun j => h (ix1 j)

theorem realArr_unc {a b : Nat} {g : M a b} (h : Real2 g) : RealArr (unc g) :=
  fun i => h (i 0) (i 1)

theorem tr_apply (w : FVec Ideal S64x64 .f32) (j i : Fin 64) : tr w (ix2 j i) = w (ix2 i j) :=
  transpose_ix2_apply w _ j i

theorem realArr_tr {w : FVec Ideal S64x64 .f32} (h : RealArr w) : RealArr (tr w) := by
  intro i
  obtain ⟨j, k, rfl⟩ : ∃ j k : Fin 64, i = ix2 j k := ⟨i 0, i 1, eq_ix2 i⟩
  rw [tr_apply]
  exact h _

theorem curRow_shapeCast (a : FVec Ideal ⟨1, ![64]⟩ .f32) :
    curRow (shapeCast ⟨2, ![1, 64]⟩ a (by decide)) = cur1 a :=
  funext fun j => shapeCast_a_1a_apply a _ (0 : Fin 1) j

def kernelH1 (a0 : FVec Ideal SN64 .f32) (a1 : IVec S2xE 32) (a2 a3 : FVec Ideal S64x64 .f32) (a4 a5 a6 : FVec Ideal S64 .f32) :
    M 100000 64 :=
  layerK (cur a0) (cur (msgMean (F := Ideal) a0 (srcOf a1) (dstOf a1))) (cur (tr a2)) (cur (tr a3))
    (cur1 a4) (cur1 a5) (cur1 a6)

def kernelTerm (a0 : FVec Ideal SN64 .f32) (a1 : IVec S2xE 32) (a2 a3 : FVec Ideal S64x64 .f32) (a4 a5 a6 : FVec Ideal S64 .f32)
    (a7 a8 : FVec Ideal S64x64 .f32) (a9 a10 a11 : FVec Ideal S64 .f32) :
    FVec Ideal SN64 .f32 :=
  unc (layerK (kernelH1 a0 a1 a2 a3 a4 a5 a6)
    (cur (msgMean (F := Ideal) (unc (kernelH1 a0 a1 a2 a3 a4 a5 a6)) (srcOf a1) (dstOf a1)))
    (cur (tr a7)) (cur (tr a8)) (cur1 a9) (cur1 a10) (cur1 a11))

theorem kernelH1_eq (a0 : FVec Ideal SN64 .f32) (a1 : IVec S2xE 32) (a2 a3 : FVec Ideal S64x64 .f32) (a4 a5 a6 : FVec Ideal S64 .f32)
    (h0 : RealArr a0) (h2 : RealArr a2) (h3 : RealArr a3) (h4 : RealArr a4) (h5 : RealArr a5) (h6 : RealArr a6) :
    kernelH1 a0 a1 a2 a3 a4 a5 a6 = specH1 a0 a1 a2 a3 a4 a5 a6 :=
  layer_eq _ _ _ _ _ _ _ (real2_cur h0) (real2_cur (msgMean_real a0 _ _ h0)) (real2_cur (realArr_tr h2))
    (real2_cur (realArr_tr h3)) (real1_cur1 h4) (real1_cur1 h5) (real1_cur1 h6)

theorem specH1_real (a0 : FVec Ideal SN64 .f32) (a1 : IVec S2xE 32) (a2 a3 : FVec Ideal S64x64 .f32) (a4 a5 a6 : FVec Ideal S64 .f32)
    (h0 : RealArr a0) (h2 : RealArr a2) (h3 : RealArr a3) (h4 : RealArr a4) (h5 : RealArr a5) (h6 : RealArr a6) :
    Real2 (specH1 a0 a1 a2 a3 a4 a5 a6) :=
  layer_real _ _ _ _ _ _ _ (real2_cur h0) (real2_cur (msgMean_real a0 _ _ h0)) (real2_cur (realArr_tr h2))
    (real2_cur (realArr_tr h3)) (real1_cur1 h4) (real1_cur1 h5) (real1_cur1 h6)

theorem bridge (a0 : FVec Ideal SN64 .f32) (a1 : IVec S2xE 32) (a2 a3 : FVec Ideal S64x64 .f32) (a4 a5 a6 : FVec Ideal S64 .f32)
    (a7 a8 : FVec Ideal S64x64 .f32) (a9 a10 a11 : FVec Ideal S64 .f32)
    (h0 : RealArr a0) (h2 : RealArr a2) (h3 : RealArr a3) (h4 : RealArr a4) (h5 : RealArr a5) (h6 : RealArr a6)
    (h7 : RealArr a7) (h8 : RealArr a8) (h9 : RealArr a9) (h10 : RealArr a10) (h11 : RealArr a11) :
    kernelTerm a0 a1 a2 a3 a4 a5 a6 a7 a8 a9 a10 a11 = refTerm a0 a1 a2 a3 a4 a5 a6 a7 a8 a9 a10 a11 := by
  have hH : Real2 (specH1 a0 a1 a2 a3 a4 a5 a6) := specH1_real a0 a1 a2 a3 a4 a5 a6 h0 h2 h3 h4 h5 h6
  rw [refTerm_eq]
  unfold kernelTerm
  rw [kernelH1_eq a0 a1 a2 a3 a4 a5 a6 h0 h2 h3 h4 h5 h6]
  exact congrArg unc (layer_eq _ _ _ _ _ _ _ hH (real2_cur (msgMean_real _ _ _ (realArr_unc hH)))
    (real2_cur (realArr_tr h7)) (real2_cur (realArr_tr h8)) (real1_cur1 h9) (real1_cur1 h10) (real1_cur1 h11))

end Cert.Bridge

end
-- ==== Proof.KI.Value.lean ====
import Idealize.ShloMosaic.Lib.ValueLayout
import proofs.«422895_j12790412608056_1_alg».proof.Proof.KI.RunDefs
import proofs.«422895_j12790412608056_1_alg».proof.Proof.KI.Lin0Value
import proofs.«422895_j12790412608056_1_alg».proof.Proof.KI.Bn1Value
import proofs.«422895_j12790412608056_1_alg».proof.Proof.KI.Lin2Value
import proofs.«422895_j12790412608056_1_alg».proof.Proof.KI.Bn3Value
import proofs.«422895_j12790412608056_1_alg».proof.Proof.KI.HostStats
import proofs.«422895_j12790412608056_1_alg».proof.Proof.KI.Host
import proofs.«422895_j12790412608056_1_alg».proof.Proof.RefTerm
import proofs.«422895_j12790412608056_1_alg».proof.Proof.Bridge

noncomputable section

namespace Cert.KernelIdeal.Hand

open Idealize.ShloMosaic Idealize.ShloMosaic.TcCoe Idealize.ShloMosaic.ValueIdx
open Cert.KernelIdeal Cert.KernelIdeal.Gen
open Cert.Agg Cert.Spec
open Cert.RefTerm (srcOf dstOf tr)
open Cert.Bridge (kernelH1 kernelTerm curRow_shapeCast)

/-- A layer's normalisation from what its first call leaves: the rows of column sums of y and of y² over the row count
    give every column's mean and variance. -/
theorem bn_rows (Y : M 100000 64) (s ss : FVec Ideal S1x64 .f32) (g be : FVec Ideal S64 .f32)
    (hs : ∀ j, s (ix2 (0 : Fin 1) j) = colSum Y j) (hss : ∀ j, ss (ix2 (0 : Fin 1) j) = colSumSq Y j) :
    bnK (cur (unc Y)) (curRow (Host.divf (F := Ideal) s nRow))
      (curRow (subf (Host.divf (F := Ideal) ss nRow) (mulf (Host.divf (F := Ideal) s nRow) (Host.divf (F := Ideal) s nRow))))
      (curRow (shapeCast S1x64 g shapeCasts_S64_S1x64)) (curRow (shapeCast S1x64 be shapeCasts_S64_S1x64))
      = bnK Y (meanK Y) (varK Y) (cur1 g) (cur1 be) := by
  have hm : curRow (Host.divf (F := Ideal) s nRow) = meanK Y := funext fun j => congrArg (Ideal.div · nRows) (hs j)
  have hv : curRow (subf (Host.divf (F := Ideal) ss nRow) (mulf (Host.divf (F := Ideal) s nRow) (Host.divf (F := Ideal) s nRow)))
      = varK Y := funext fun j => by
    show Ideal.div (ss (ix2 0 j)) nRows - Ideal.div (s (ix2 0 j)) nRows * Ideal.div (s (ix2 0 j)) nRows = _
    rw [hs, hss]; rfl
  rw [hm, hv, curRow_shapeCast, curRow_shapeCast]
  rfl

variable (m : (ℓ : Loc nD τ sig) → Buf (Elt Ideal) ℓ) (c : Dev nD)

/-- A launch argument. -/
abbrev arg (r : Ref sig .tc) : Buf (Elt Ideal) ((c : Thread nD τ).loc r) := m ((c : Thread nD τ).loc r)

/-- Every source number is a node number. -/
def SrcOk : Prop := ∀ e, 0 ≤ (srcOf (arg m c main_arg1) e).toInt ∧ (srcOf (arg m c main_arg1) e).toInt < 100000

/-- The first layer's table. -/
def H1 : M 100000 64 :=
  kernelH1 (arg m c main_arg0) (arg m c main_arg1) (arg m c main_arg2) (arg m c main_arg3) (arg m c main_arg4) (arg m c main_arg5) (arg m c main_arg6)

/-- The first call's y, from the launch arguments. -/
theorem Y0_eq (hr : SrcOk m c) : Y0 (E3 m) c
    = lin (cur (arg m c main_arg0)) (cur (msgMean (F := Ideal) (arg m c main_arg0) (srcOf (arg m c main_arg1)) (dstOf (arg m c main_arg1))))
        (cur (tr (arg m c main_arg2))) (cur (tr (arg m c main_arg3))) (cur1 (arg m c main_arg4)) := by
  obtain ⟨e17, e18, e19⟩ := K1 m c
  show lin (cur (V3 m c main_arg0)) (cur (V3 m c main_v16)) (cur (V3 m c main_v17)) (cur (V3 m c main_v18))
      (curRow (V3 m c main_v19)) = _
  obtain ⟨-, a0, -, -, -⟩ := keepA m c (outs m) main_arg0 (by decide) (by decide)
  obtain ⟨a2, -, -, -, -⟩ := keepA m c (outs m) main_arg2 (by decide) (by decide)
  obtain ⟨a3, -, -, -, -⟩ := keepA m c (outs m) main_arg3 (by decide) (by decide)
  obtain ⟨a4, -, -, -, -⟩ := keepA m c (outs m) main_arg4 (by decide) (by decide)
  rw [K1_v16 m c hr, e17, e18, e19, curRow_shapeCast, a0, a2, a3, a4]
  rfl

/-- After the first call its three output arrays hold y and the column sums of y and of y². -/
theorem X4_vals : X4 m c (Proc.devRef .tc main_v20_0) = unc (Y0 (E3 m) c)
    ∧ (∀ j, (X4 m c (Proc.devRef .tc main_v20_1) : S1x64.Idx → EReal) (ix2 (0 : Fin 1) j) = colSum (Y0 (E3 m) c) j)
    ∧ ∀ j, (X4 m c (Proc.devRef .tc main_v20_2) : S1x64.Idx → EReal) (ix2 (0 : Fin 1) j) = colSumSq (Y0 (E3 m) c) j :=
  ⟨(X4_arr m c 5).trans (final0_5 (E3 m) c), fun j => (congrFun (X4_arr m c 6) _).trans (final0_6 (E3 m) c j),
    fun j => (congrFun (X4_arr m c 7) _).trans (final0_7 (E3 m) c j)⟩

/-- After the second call its output array holds the first layer's table. -/
theorem X6_value (hr : SrcOk m c) : X6 m c (Proc.devRef .tc main_v29) = unc (H1 m c) := by
  obtain ⟨e22, e26, e27, e28⟩ := K2 m c (outs m)
  obtain ⟨ey, es, ess⟩ := X4_vals m c
  refine (X6_arr m c 5).trans ((final1_5 (E5 m) c).trans (congrArg unc ?_))
  show bnK (cur (V5 m (outs m) c main_v20_0)) (curRow (V5 m (outs m) c main_v22)) (curRow (V5 m (outs m) c main_v26))
      (curRow (V5 m (outs m) c main_v27)) (curRow (V5 m (outs m) c main_v28)) = _
  obtain ⟨-, -, a5, -, -⟩ := keepA m c (outs m) main_arg5 (by decide) (by decide)
  obtain ⟨-, -, a6, -, -⟩ := keepA m c (outs m) main_arg6 (by decide) (by decide)
  rw [e22, e26, e27, e28, V5_of m (outs m) c main_v20_0 (by decide), V4_at_main_v20_0, V4_at_main_v20_1, V4_at_main_v20_2, ey, a5, a6]
  refine (bn_rows _ _ _ _ _ es ess).trans ?_
  rw [Y0_eq m c hr]
  rfl

/-- The third call's y, from the launch arguments and the first layer's table. -/
theorem Y2_eq (hr : SrcOk m c) : Y2 (E8 m) c
    = lin (H1 m c) (cur (msgMean (F := Ideal) (unc (H1 m c)) (srcOf (arg m c main_arg1)) (dstOf (arg m c main_arg1))))
        (cur (tr (arg m c main_arg7))) (cur (tr (arg m c main_arg8))) (cur1 (arg m c main_arg9)) := by
  obtain ⟨e39, e40, e41⟩ := K3 m c (outs m)
  obtain ⟨-, -, -, a7, -⟩ := keepA m c (outs m) main_arg7 (by decide) (by decide)
  obtain ⟨-, -, -, a8, -⟩ := keepA m c (outs m) main_arg8 (by decide) (by decide)
  obtain ⟨-, -, -, a9, -⟩ := keepA m c (outs m) main_arg9 (by decide) (by decide)
  have e38 := (K3_v38 m c (outs m) hr).trans (congrArg (msgMean (F := Ideal) · _ _) (X6_value m c hr))
  show lin (cur (V8 m (outs m) c main_v29)) (cur (V8 m (outs m) c main_v38)) (cur (V8 m (outs m) c main_v39))
      (cur (V8 m (outs m) c main_v40)) (curRow (V8 m (outs m) c main_v41)) = _
  rw [e38, e39, e40, e41, curRow_shapeCast, V8_of m (outs m) c main_v29 (by decide), V7_of m (outs m) c main_v29 (by decide),
    V6_at_main_v29, X6_value m c hr, a7, a8, a9]
  rfl

/-- After the third call its three output arrays hold y and the column sums of y and of y². -/
theorem X9_vals : X9 m c (Proc.devRef .tc main_v42_0) = unc (Y2 (E8 m) c)
    ∧ (∀ j, (X9 m c (Proc.devRef .tc main_v42_1) : S1x64.Idx → EReal) (ix2 (0 : Fin 1) j) = colSum (Y2 (E8 m) c) j)
    ∧ ∀ j, (X9 m c (Proc.devRef .tc main_v42_2) : S1x64.Idx → EReal) (ix2 (0 : Fin 1) j) = colSumSq (Y2 (E8 m) c) j :=
  ⟨(X9_arr m c 5).trans (final2_5 (E8 m) c), fun j => (congrFun (X9_arr m c 6) _).trans (final2_6 (E8 m) c j),
    fun j => (congrFun (X9_arr m c 7) _).trans (final2_7 (E8 m) c j)⟩

/-- The whole program: layer one's table feeds layer two's linear map and neighbour mean, and the result array is layer two's table. -/
theorem kernel_value (m : (ℓ : Loc nD τ sig) → Buf (Elt Ideal) ℓ) (c : Dev nD)
    (hr : ∀ e, 0 ≤ (srcOf (m ((c : Thread nD τ).loc main_arg1)) e).toInt ∧ (srcOf (m ((c : Thread nD τ).loc main_arg1)) e).toInt < 100000) :
    V11 m (outs m) c main_v51
      = kernelTerm (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11)) := by
  obtain ⟨e44, e48, e49, e50⟩ := K4 m c (outs m)
  obtain ⟨ey, es, ess⟩ := X9_vals m c
  refine (V11_at_main_v51 m c).trans ((X11_arr m c 5).trans ((final3_5 (E10 m) c).trans (congrArg unc ?_)))
  show bnK (cur (V10 m (outs m) c main_v42_0)) (curRow (V10 m (outs m) c main_v44)) (curRow (V10 m (outs m) c main_v48))
      (curRow (V10 m (outs m) c main_v49)) (curRow (V10 m (outs m) c main_v50)) = _
  obtain ⟨-, -, -, -, a10⟩ := keepA m c (outs m) main_arg10 (by decide) (by decide)
  obtain ⟨-, -, -, -, a11⟩ := keepA m c (outs m) main_arg11 (by decide) (by decide)
  rw [e44, e48, e49, e50, V10_of m (outs m) c main_v42_0 (by decide), V9_at_main_v42_0, V9_at_main_v42_1, V9_at_main_v42_2, ey, a10, a11]
  refine (bn_rows _ _ _ _ _ es ess).trans ?_
  rw [Y2_eq m c hr]
  rfl

end Cert.KernelIdeal.Hand

end
-- ==== Proof.RefRun.lean ====
import proofs.«422895_j12790412608056_1_alg».proof.ReferenceIdeal
import proofs.«422895_j12790412608056_1_alg».proof.Proof.Gen.ReferenceIdeal
import Idealize.ShloMosaic.Lib.StableHlo.Run
import proofs.«422895_j12790412608056_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x64_S1600000x1_S1600000x64_1_0_n_n_0_1_164 x i),
    nullary main_cst (constant S_ .f32 0x00000000#32),
    unary main_cst main_v11 (broadcastInDim S100000x64 ![] bcast_S_S100000x64),
    unary main_v3 main_v12 (broadcastInDim S1600000x1 ![0] bcast_S1600000_S1600000x1_0),
    ternary main_v11 main_v12 main_v10 main_v13 (fun x i u => Host.scatterAdd scatter_S100000x64_S1600000x1_S1600000x64_1_0_0_1 x i u),
    nullary main_cst_1 (constant S_ .f32 0x3F800000#32),
    unary main_cst_1 main_v14 (broadcastInDim S1600000 ![] bcast_S_S1600000),
    nullary main_cst_2 (constant S_ .f32 0x00000000#32),
    unary main_cst_2 main_v15 (broadcastInDim S100000 ![] bcast_S_S100000),
    unary main_v3 main_v16 (broadcastInDim S1600000x1 ![0] bcast_S1600000_S1600000x1_0),
    ternary main_v15 main_v16 main_v14 main_v17 (fun x i u => Host.scatterAdd scatter_S100000_S1600000x1_S1600000_n_0_0_1 x i u),
    nullary main_cst_3 (constant S_ .f32 0x3F800000#32),
    unary main_cst_3 main_v18 (broadcastInDim S100000 ![] bcast_S_S100000),
    binary main_v17 main_v18 main_v19 maximumf,
    unary main_v19 main_v20 (broadcastInDim S100000x1 ![0] bcast_S100000_S100000x1_0),
    unary main_v20 main_v21 (broadcastInDim S100000x64 ![0, 1] bcast_S100000x1_S100000x64_0_1),
    binary main_v13 main_v21 main_v22 Host.divf,
    unary main_arg2 main_v23 (transpose S64x64 [1, 0] · transposes_S64x64_S64x64_1_0),
    binary main_arg0 main_v23 main_v24 (fun l r => Host.dotGeneral dot_S100000x64_S64x64_S100000x64_1_0_0_1_n_n none l r),
    unary main_arg3 main_v25 (transpose S64x64 [1, 0] · transposes_S64x64_S64x64_1_0),
    binary main_v22 main_v25 main_v26 (fun l r => Host.dotGeneral dot_S100000x64_S64x64_S100000x64_1_0_0_1_n_n none l r),
    binary main_v24 main_v26 main_v27 addf,
    unary main_arg4 main_v28 (broadcastInDim S1x64 ![1] bcast_S64_S1x64_1),
    unary main_v28 main_v29 (broadcastInDim S100000x64 ![0, 1] bcast_S1x64_S100000x64_0_1),
    binary main_v27 main_v29 main_v30 addf,
    nullary main_cst_4 (constant S_ .f32 0x00000000#32),
    binary main_v30 main_cst_4 main_v31 (fun x v => Host.reduceAdd x v reducesTo_S100000x64_S64_d0 h_S_),
    nullary main_cst_5 (constant S_ .f32 0x47C35000#32),
    unary main_cst_5 main_v32 (broadcastInDim S64 ![] bcast_S_S64),
    binary main_v31 main_v32 main_v33 Host.divf,
    unary main_v33 main_v34 (broadcastInDim S1x64 ![1] bcast_S64_S1x64_1),
    unary main_v34 main_v35 (broadcastInDim S100000x64 ![0, 1] bcast_S1x64_S100000x64_0_1),
    binary main_v30 main_v35 main_v36 subf,
    binary main_v36 main_v36 main_v37 mulf,
    nullary main_cst_6 (constant S_ .f32 0x00000000#32),
    binary main_v37 main_cst_6 main_v38 (fun x v => Host.reduceAdd x v reducesTo_S100000x64_S64_d0 h_S_),
    nullary main_cst_7 (constant S_ .f32 0x47C35000#32),
    unary main_cst_7 main_v39 (broadcastInDim S64 ![] bcast_S_S64),
    binary main_v38 main_v39 main_v40 Host.divf,
    unary main_v33 main_v41 (broadcastInDim S1x64 ![1] bcast_S64_S1x64_1),
    unary main_v41 main_v42 (broadcastInDim S100000x64 ![0, 1] bcast_S1x64_S100000x64_0_1),
    binary main_v30 main_v42 main_v43 subf,
    nullary main_cst_8 (constant S_ .f32 0x3727C5AC#32),
    unary main_cst_8 main_v44 (broadcastInDim S64 ![] bcast_S_S64),
    binary main_v40 main_v44 main_v45 addf,
    unary main_v45 main_v46 Host.rsqrt,
    unary main_v46 main_v47 (broadcastInDim S1x64 ![1] bcast_S64_S1x64_1),
    unary main_v47 main_v48 (broadcastInDim S100000x64 ![0, 1] bcast_S1x64_S100000x64_0_1),
    binary main_v43 main_v48 main_v49 mulf,
    unary main_arg5 main_v50 (broadcastInDim S1x64 ![1] bcast_S64_S1x64_1),
    unary main_v50 main_v51 (broadcastInDim S100000x64 ![0, 1] bcast_S1x64_S100000x64_0_1),
    binary main_v49 main_v51 main_v52 mulf,
    unary main_arg6 main_v53 (broadcastInDim S1x64 ![1] bcast_S64_S1x64_1),
    unary main_v53 main_v54 (broadcastInDim S100000x64 ![0, 1] bcast_S1x64_S100000x64_0_1),
    binary main_v52 main_v54 main_v55 addf,
    nullary main_cst_9 (constant S_ .f32 0x3C23D70A#32),
    TRef.nullary main_call0.cst (constant S_ .f32 0x00000000#32),
    TRef.unary main_call0.cst main_call0.v0 (broadcastInDim S100000x64 ![] bcast_S_S100000x64),
    TRef.binary (.of main_v55) main_call0.v0 main_call0.v1 (cmpf .oge),
    TRef.unary (.of main_cst_9) main_call0.v2 id,
    TRef.unary main_call0.v2 main_call0.v3 (broadcastInDim S100000x64 ![] bcast_S_S100000x64),
    TRef.binary main_call0.v3 (.of main_v55) main_call0.v4 mulf,
    TRef.ternary main_call0.v1 (.of main_v55) main_call0.v4 main_call0.call0.v0 select,
    nullary main_c_10 (constantI S_ 32 0#32),
    unary main_c_10 main_v57 (broadcastInDim S1600000 ![] bcast_S_S1600000),
    binary main_v1 main_v57 main_v58 (cmpi .slt),
    nullary main_c_11 (constantI S_ 32 100000#32),
    unary main_c_11 main_v59 (broadcastInDim S1600000 ![] bcast_S_S1600000),
    binary main_v1 main_v59 main_v60 addi,
    ternary main_v58 main_v60 main_v1 main_v61 select,
    unary main_v61 main_v62 (broadcastInDim S1600000x1 ![0] bcast_S1600000_S1600000x1_0),
    binary main_v56 main_v62 main_v63 (fun x i => Host.gather gather_S100000x64_S1600000x1_S1600000x64_1_0_n_n_0_1_164 x i),
    nullary main_cst_12 (constant S_ .f32 0x00000000#32),
    unary main_cst_12 main_v64 (broadcastInDim S100000x64 ![] bcast_S_S100000x64),
    unary main_v3 main_v65 (broadcastInDim S1600000x1 ![0] bcast_S1600000_S1600000x1_0),
    ternary main_v64 main_v65 main_v63 main_v66 (fun x i u => Host.scatterAdd scatter_S100000x64_S1600000x1_S1600000x64_1_0_0_1 x i u),
    nullary main_cst_13 (constant S_ .f32 0x3F800000#32),
    unary main_cst_13 main_v67 (broadcastInDim S1600000 ![] bcast_S_S1600000),
    nullary main_cst_14 (constant S_ .f32 0x00000000#32),
    unary main_cst_14 main_v68 (broadcastInDim S100000 ![] bcast_S_S100000),
    unary main_v3 main_v69 (broadcastInDim S1600000x1 ![0] bcast_S1600000_S1600000x1_0),
    ternary main_v68 main_v69 main_v67 main_v70 (fun x i u => Host.scatterAdd scatter_S100000_S1600000x1_S1600000_n_0_0_1 x i u),
    nullary main_cst_15 (constant S_ .f32 0x3F800000#32),
    unary main_cst_15 main_v71 (broadcastInDim S100000 ![] bcast_S_S100000),
    binary main_v70 main_v71 main_v72 maximumf,
    unary main_v72 main_v73 (broadcastInDim S100000x1 ![0] bcast_S100000_S100000x1_0),
    unary main_v73 main_v74 (broadcastInDim S100000x64 ![0, 1] bcast_S100000x1_S100000x64_0_1),
    binary main_v66 main_v74 main_v75 Host.divf,
    unary main_arg7 main_v76 (transpose S64x64 [1, 0] · transposes_S64x64_S64x64_1_0),
    binary main_v56 main_v76 main_v77 (fun l r => Host.dotGeneral dot_S100000x64_S64x64_S100000x64_1_0_0_1_n_n none l r),
    unary main_arg8 main_v78 (transpose S64x64 [1, 0] · transposes_S64x64_S64x64_1_0),
    binary main_v75 main_v78 main_v79 (fun l r => Host.dotGeneral dot_S100000x64_S64x64_S100000x64_1_0_0_1_n_n none l r),
    binary main_v77 main_v79 main_v80 addf,
    unary main_arg9 main_v81 (broadcastInDim S1x64 ![1] bcast_S64_S1x64_1),
    unary main_v81 main_v82 (broadcastInDim S100000x64 ![0, 1] bcast_S1x64_S100000x64_0_1),
    binary main_v80 main_v82 main_v83 addf,
    nullary main_cst_16 (constant S_ .f32 0x00000000#32),
    binary main_v83 main_cst_16 main_v84 (fun x v => Host.reduceAdd x v reducesTo_S100000x64_S64_d0 h_S_),
    nullary main_cst_17 (constant S_ .f32 0x47C35000#32),
    unary main_cst_17 main_v85 (broadcastInDim S64 ![] bcast_S_S64),
    binary main_v84 main_v85 main_v86 Host.divf,
    unary main_v86 main_v87 (broadcastInDim S1x64 ![1] bcast_S64_S1x64_1),
    unary main_v87 main_v88 (broadcastInDim S100000x64 ![0, 1] bcast_S1x64_S100000x64_0_1),
    binary main_v83 main_v88 main_v89 subf,
    binary main_v89 main_v89 main_v90 mulf,
    nullary main_cst_18 (constant S_ .f32 0x00000000#32),
    binary main_v90 main_cst_18 main_v91 (fun x v => Host.reduceAdd x v reducesTo_S100000x64_S64_d0 h_S_),
    nullary main_cst_19 (constant S_ .f32 0x47C35000#32),
    unary main_cst_19 main_v92 (broadcastInDim S64 ![] bcast_S_S64),
    binary main_v91 main_v92 main_v93 Host.divf,
    unary main_v86 main_v94 (broadcastInDim S1x64 ![1] bcast_S64_S1x64_1),
    unary main_v94 main_v95 (broadcastInDim S100000x64 ![0, 1] bcast_S1x64_S100000x64_0_1),
    binary main_v83 main_v95 main_v96 subf,
    nullary main_cst_20 (constant S_ .f32 0x3727C5AC#32),
    unary main_cst_20 main_v97 (broadcastInDim S64 ![] bcast_S_S64),
    binary main_v93 main_v97 main_v98 addf,
    unary main_v98 main_v99 Host.rsqrt,
    unary main_v99 main_v100 (broadcastInDim S1x64 ![1] bcast_S64_S1x64_1),
    unary main_v100 main_v101 (broadcastInDim S100000x64 ![0, 1] bcast_S1x64_S100000x64_0_1),
    binary main_v96 main_v101 main_v102 mulf,
    unary main_arg10 main_v103 (broadcastInDim S1x64 ![1] bcast_S64_S1x64_1),
    unary main_v103 main_v104 (broadcastInDim S100000x64 ![0, 1] bcast_S1x64_S100000x64_0_1),
    binary main_v102 main_v104 main_v105 mulf,
    unary main_arg11 main_v106 (broadcastInDim S1x64 ![1] bcast_S64_S1x64_1),
    unary main_v106 main_v107 (broadcastInDim S100000x64 ![0, 1] bcast_S1x64_S100000x64_0_1),
    binary main_v105 main_v107 main_v108 addf,
    nullary main_cst_21 (constant S_ .f32 0x3C23D70A#32),
    TRef.nullary main_call1.cst (constant S_ .f32 0x00000000#32),
    TRef.unary main_call1.cst main_call1.v0 (broadcastInDim S100000x64 ![] bcast_S_S100000x64),
    TRef.binary (.of main_v108) main_call1.v0 main_call1.v1 (cmpf .oge),
    TRef.unary (.of main_cst_21) main_call1.v2 id,
    TRef.unary main_call1.v2 main_call1.v3 (broadcastInDim S100000x64 ![] bcast_S_S100000x64),
    TRef.binary main_call1.v3 (.of main_v108) main_call1.v4 mulf,
    TRef.ternary main_call1.v1 (.of main_v108) main_call1.v4 main_call1.call0.v0 select ]

set_option maxRecDepth 8192 in
set_option maxHeartbeats 4000000 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in

theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

abbrev written : List (Ref sig .tc) :=
  [ main_v0, main_v1, main_v2, main_v3, main_c, main_v4, main_v5, main_c_0, main_v6, main_v7, main_v8, main_v9,
    main_v10, main_cst, main_v11, main_v12, main_v13, main_cst_1, main_v14, main_cst_2, main_v15, main_v16, main_v17, main_cst_3,
    main_v18, main_v19, main_v20, main_v21, main_v22, main_v23, main_v24, main_v25, main_v26, main_v27, main_v28, main_v29,
    main_v30, main_cst_4, main_v31, main_cst_5, main_v32, main_v33, main_v34, main_v35, main_v36, main_v37, main_cst_6, main_v38,
    main_cst_7, main_v39, main_v40, main_v41, main_v42, main_v43, main_cst_8, main_v44, main_v45, main_v46, main_v47, main_v48,
    main_v49, main_v50, main_v51, main_v52, main_v53, main_v54, main_v55, main_cst_9, main_call0_cst, main_call0_v0, main_call0_v1, main_call0_v2,
    main_call0_v3, main_call0_v4, main_v56, main_c_10, main_v57, main_v58, main_c_11, main_v59, main_v60, main_v61, main_v62, main_v63,
    main_cst_12, main_v64, main_v65, main_v66, main_cst_13, main_v67, main_cst_14, main_v68, main_v69, main_v70, main_cst_15, main_v71,
    main_v72, main_v73, main_v74, main_v75, main_v76, main_v77, main_v78, main_v79, main_v80, main_v81, main_v82, main_v83,
    main_cst_16, main_v84, main_cst_17, main_v85, main_v86, main_v87, main_v88, main_v89, main_v90, main_cst_18, main_v91, main_cst_19,
    main_v92, main_v93, main_v94, main_v95, main_v96, main_cst_20, main_v97, main_v98, main_v99, main_v100, main_v101, main_v102,
    main_v103, main_v104, main_v105, main_v106, main_v107, main_v108, main_cst_21, main_call1_cst, main_call1_v0, main_call1_v1, main_call1_v2, main_call1_v3,
    main_call1_v4, main_v109 ]

set_option maxRecDepth 8192 in
set_option maxHeartbeats 4000000 in

theorem ops_writes : (ops : List (HloOp τ sig (Elt F))).Forall fun op =>
    op.writes ⊆ (written.map (Proc.devRef (τ := τ) .tc)).toFinset := by
  simp only [List.Forall]
  repeat' apply And.intro
  all_goals
    (simp only [nullary_writes, unary_writes, binary_writes, ternary_writes, reshape_writes,
      Finset.singleton_subset_iff, List.mem_toFinset]; exact List.mem_map_of_mem (by decide))

theorem after_keep (V : Valuation τ sig (Elt F)) (r : Ref sig .tc) (h : r ∉ written) :
    after ops V (Proc.devRef .tc r) = V (Proc.devRef .tc r) :=
  after_of_writes_sub ops V ops_writes h

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v109) = after ops (fun b => m (c, b)) (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v109,
      (h c main_arg0).trans (after_keep _ main_arg0 (by decide)),
      (h c main_arg1).trans (after_keep _ main_arg1 (by decide)),
      (h c main_arg2).trans (after_keep _ main_arg2 (by decide)),
      (h c main_arg3).trans (after_keep _ main_arg3 (by decide)),
      (h c main_arg4).trans (after_keep _ main_arg4 (by decide)),
      (h c main_arg5).trans (after_keep _ main_arg5 (by decide)),
      (h c main_arg6).trans (after_keep _ main_arg6 (by decide)),
      (h c main_arg7).trans (after_keep _ main_arg7 (by decide)),
      (h c main_arg8).trans (after_keep _ main_arg8 (by decide)),
      (h c main_arg9).trans (after_keep _ main_arg9 (by decide)),
      (h c main_arg10).trans (after_keep _ main_arg10 (by decide)),
      (h c main_arg11).trans (after_keep _ main_arg11 (by decide))⟩)
    (run_seq scopedRefs_eq scopedSems_eq defs main (fun _ => ops) main_eq (fun _ => ops_sub) m ρ)

set_option maxRecDepth 8192 in
set_option maxHeartbeats 60000000 in

theorem result_eq (m : (ℓ : Loc nD τ sig) → Buf (Elt Ideal) ℓ) (c : Dev nD) :
    after (ops (F := Ideal)) (fun b => m (c, b)) (Proc.devRef .tc main_v109)
      = Cert.RefTerm.refTerm (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11)) := by
  after_results_simp
  rfl

end Cert.ReferenceIdeal.RefRun

end
-- ==== Proof.PreDecode.lean ====
import Idealize.ShloMosaic.Lib.ReduceAll
import Idealize.ShloMosaic.PureOps.Ideal
import proofs.«422895_j12790412608056_1_alg».proof.Pre_finite_inputs
import proofs.«422895_j12790412608056_1_alg».proof.Proof.Agg

noncomputable section

namespace Cert.PreDecode

open Idealize.ShloMosaic Cert.Agg

instance : Subsingleton (⟨0, ![]⟩ : Shape).Idx := ⟨fun a b => funext fun d => d.elim0⟩

theorem inf_bits : Ideal.ofBits .f32 0x7F800000#32 = (⊤ : EReal) := by simp [Ideal.ofBits, Ideal.ieee]

theorem real_of_abs_lt (x : EReal)
    (h : Ideal.cmp .olt (max x (-x)) (Ideal.ofBits .f32 0x7F800000#32) = 1#1) : x ≠ ⊤ ∧ x ≠ ⊥ := by
  rw [inf_bits] at h
  have h' : max x (-x) < ⊤ := by
    unfold Ideal.cmp at h
    revert h
    by_cases hlt : max x (-x) < ⊤
    · exact fun _ => hlt
    · simp [hlt]
  constructor
  · rintro rfl; simp at h'
  · rintro rfl; simp at h'

theorem all_real {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel) (j : (⟨0, ![]⟩ : Shape).Idx)
    (h : Host.reduce IntOp.andi
        (cmpf .olt (Host.absf x) (broadcastInDim s ![] hb (constant (F := Ideal) ⟨0, ![]⟩ .f32 0x7F800000#32)))
        (constantI ⟨0, ![]⟩ 1 1#1) hr hu j = 1#1) : RealArr x := by
  intro i
  exact real_of_abs_lt (x i) (Host.reduce_andi_all _ _ hr hu j h i)

theorem in_range (w : BitVec 32) (h0 : IntOp.cmpi .sge w 0#32 = 1#1) (h1 : IntOp.cmpi .slt w 100000#32 = 1#1) :
    0 ≤ w.toInt ∧ w.toInt < 100000 := by
  have e0 : (0#32 : BitVec 32).toInt = 0 := by decide
  have e1 : (100000#32 : BitVec 32).toInt = 100000 := by decide
  have a := IntOp.cmpi_sge.1 h0
  have b := IntOp.cmpi_slt.1 h1
  rw [e0] at a; rw [e1] at b
  exact ⟨a, b⟩

theorem decode [Cert.Pre_finite_inputs.Facts]
    (a0 : FVec Ideal ⟨2, ![100000, 64]⟩ .f32) (a1 : IVec ⟨2, ![2, 1600000]⟩ 32)
    (a2 a3 : FVec Ideal ⟨2, ![64, 64]⟩ .f32) (a4 a5 a6 : FVec Ideal ⟨1, ![64]⟩ .f32)
    (a7 a8 : FVec Ideal ⟨2, ![64, 64]⟩ .f32) (a9 a10 a11 : FVec Ideal ⟨1, ![64]⟩ .f32)
    (h : Cert.Pre_finite_inputs.fn (F := Ideal) a0 a1 a2 a3 a4 a5 a6 a7 a8 a9 a10 a11 = fun _ => 1#1) :
    RealArr a0 ∧ RealArr a2 ∧ RealArr a3 ∧ RealArr a4 ∧ RealArr a5 ∧ RealArr a6
      ∧ RealArr a7 ∧ RealArr a8 ∧ RealArr a9 ∧ RealArr a10 ∧ RealArr a11
      ∧ ∀ e : SE.Idx, 0 ≤ (srcRow a1 e).toInt ∧ (srcRow a1 e).toInt < 100000 := by

  have h0 := congrFun h ValueIdx.ix0
  dsimp only [Cert.Pre_finite_inputs.fn, Cert.Pre_finite_inputs.fn_part1, Cert.Pre_finite_inputs.fn_part2,
    Cert.Pre_finite_inputs.fn_part3] at h0

  obtain ⟨h0, csrc⟩ := IntOp.andi_eq_one.1 h0
  obtain ⟨h0, c11⟩ := IntOp.andi_eq_one.1 h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨c0, c2⟩ := IntOp.andi_eq_one.1 h0
  refine ⟨all_real a0 _ _ _ _ c0, all_real a2 _ _ _ _ c2, all_real a3 _ _ _ _ c3, all_real a4 _ _ _ _ c4,
    all_real a5 _ _ _ _ c5, all_real a6 _ _ _ _ c6, all_real a7 _ _ _ _ c7, all_real a8 _ _ _ _ c8,
    all_real a9 _ _ _ _ c9, all_real a10 _ _ _ _ c10, all_real a11 _ _ _ _ c11, fun e => ?_⟩

  obtain ⟨p, q⟩ := IntOp.andi_eq_one.1 (Host.reduce_andi_all _ _ _ _ _ csrc e)
  exact in_range (srcRow a1 e) p q

end Cert.PreDecode

end
-- ==== Proof.lean ====
import proofs.«422895_j12790412608056_1_alg».proof.Defs
import proofs.«422895_j12790412608056_1_alg».proof.Proof.Gen.Kernel
import proofs.«422895_j12790412608056_1_alg».proof.Proof.Gen.KernelIdeal
import proofs.«422895_j12790412608056_1_alg».proof.Proof.Gen.ReferenceIdeal
import proofs.«422895_j12790412608056_1_alg».proof.Proof.Gen.Pre_finite_inputs
import proofs.«422895_j12790412608056_1_alg».proof.Proof.K.Run
import proofs.«422895_j12790412608056_1_alg».proof.Proof.KI.Run
import proofs.«422895_j12790412608056_1_alg».proof.Proof.KI.Value
import proofs.«422895_j12790412608056_1_alg».proof.Proof.RefRun
import proofs.«422895_j12790412608056_1_alg».proof.Proof.Bridge
import proofs.«422895_j12790412608056_1_alg».proof.Proof.PreDecode
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

-- The program is host operations and four kernel calls in turn; each part terminates and the twelve arguments end as they began.
theorem frame_k : Cert.frame_Kernel := fun m ρ _ => Cert.Kernel.Hand.frame m ρ

-- The same for the program read at exact arithmetic.
theorem frame_ki : Cert.frame_KernelIdeal := fun m ρ _ => Cert.KernelIdeal.Hand.frame m ρ

-- The reference is one straight run of host operations; its frame is that run with the result forgotten.
theorem frame_ri : Cert.frame_ReferenceIdeal := fun m ρ _ =>
  (θ_run Cert.ReferenceIdeal.defs _ _).mono (fun _ h c => (h c).2) (Cert.ReferenceIdeal.RefRun.run (F := Ideal) m ρ)

open Cert.KernelIdeal Cert.KernelIdeal.Gen Cert.KernelIdeal.Hand in

-- On real inputs with every source node a row of the table, running column sums give the two-pass mean and variance, so both programs compute one two-layer function.
theorem algebraic : Cert.algebraic_KernelIdeal_ReferenceIdeal := by
  intro m ρ m' ρ' hpre hagree
  refine ⟨fun c => V11 m (outs m) c main_v51, ?_, ?_⟩
  · exact (θ_run Cert.KernelIdeal.defs _ _).mono (fun r h c =>
      ⟨h c _ (mem_uc main_v51 (by decide)),
       (h c _ (mem_uc main_arg0 (by decide))).trans (V11_main_arg0 m (outs m) c),
       (h c _ (mem_uc main_arg1 (by decide))).trans (V11_main_arg1 m (outs m) c),
       (h c _ (mem_uc main_arg2 (by decide))).trans (V11_main_arg2 m (outs m) c),
       (h c _ (mem_uc main_arg3 (by decide))).trans (V11_main_arg3 m (outs m) c),
       (h c _ (mem_uc main_arg4 (by decide))).trans (V11_main_arg4 m (outs m) c),
       (h c _ (mem_uc main_arg5 (by decide))).trans (V11_main_arg5 m (outs m) c),
       (h c _ (mem_uc main_arg6 (by decide))).trans (V11_main_arg6 m (outs m) c),
       (h c _ (mem_uc main_arg7 (by decide))).trans (V11_main_arg7 m (outs m) c),
       (h c _ (mem_uc main_arg8 (by decide))).trans (V11_main_arg8 m (outs m) c),
       (h c _ (mem_uc main_arg9 (by decide))).trans (V11_main_arg9 m (outs m) c),
       (h c _ (mem_uc main_arg10 (by decide))).trans (V11_main_arg10 m (outs m) c),
       (h c _ (mem_uc main_arg11 (by decide))).trans (V11_main_arg11 m (outs m) c)⟩) (run_all m ρ)
  · refine (θ_run Cert.ReferenceIdeal.defs _ _).mono (fun r h c => ⟨(h c).1.trans ?_, (h c).2⟩)
      (Cert.ReferenceIdeal.RefRun.run (F := Ideal) m' ρ')
    obtain ⟨h0, h2, h3, h4, h5, h6, h7, h8, h9, h10, h11, hr⟩ := Cert.PreDecode.decode _ _ _ _ _ _ _ _ _ _ _ _ (hpre c)
    rw [Cert.ReferenceIdeal.RefRun.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    rw [← Cert.Bridge.bridge _ _ _ _ _ _ _ _ _ _ _ _ h0 h2 h3 h4 h5 h6 h7 h8 h9 h10 h11]
    exact (kernel_value m c hr).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
